-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v11_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_v75) = v1 c
          ∧ r.2.mem ((c.tc : Thread Cert.ReferenceIdeal.nD Cert.ReferenceIdeal.τ).loc Cert.ReferenceIdeal.main_v26) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S10x1024 : Shape := ⟨2, ![10, 1024]⟩
abbrev S128000x1024 : Shape := ⟨2, ![128000, 1024]⟩
abbrev S10x2048 : Shape := ⟨2, ![10, 2048]⟩
abbrev S10 : Shape := ⟨1, ![10]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S128000 : Shape := ⟨1, ![128000]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S10x1024 : S_.BroadcastsInDim S10x1024 (![] : Fin 0 → Fin S10x1024.rank)
  reducesTo_S10x1024_S_d0_1 : S10x1024.ReducesTo [0, 1] S_
  bcast_S_S128000x1024 : S_.BroadcastsInDim S128000x1024 (![] : Fin 0 → Fin S128000x1024.rank)
  reducesTo_S128000x1024_S_d0_1 : S128000x1024.ReducesTo [0, 1] S_
  bcast_S_S10x2048 : S_.BroadcastsInDim S10x2048 (![] : Fin 0 → Fin S10x2048.rank)
  reducesTo_S10x2048_S_d0_1 : S10x2048.ReducesTo [0, 1] S_
  bcast_S_S10 : S_.BroadcastsInDim S10 (![] : Fin 0 → Fin S10.rank)
  reducesTo_S10_S_d0 : S10.ReducesTo [0] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S128000 : S_.BroadcastsInDim S128000 (![] : Fin 0 → Fin S128000.rank)
  reducesTo_S128000_S_d0 : S128000.ReducesTo [0] S_

variable [Facts]

def fn_part3 {F : FTy → Type} [FloatOps F] (main_arg12 : FVec F S128000x1024 .f32) (main_arg13 : FVec F S128000 .f32) (main_v48 : IVec S_ 1) (main_v49 : FVec F S3072 .f32) (main_v50 : FVec F S3072 .f32) : IVec S_ 1 :=
  let main_v51 : IVec S3072 1 := cmpf .olt main_v49 main_v50
  let main_c_19 : IVec S_ 1 := constantI S_ 1 1#1
  let main_v52 : IVec S_ 1 := (fun x v => Host.reduce IntOp.andi x v reducesTo_S3072_S_d0 h_S_) main_v51 main_c_19
  let main_v53 : IVec S_ 1 := andi main_v48 main_v52
  let main_v54 : FVec F S128000x1024 .f32 := Host.absf main_arg12
  let main_cst_20 : FVec F S_ .f32 := constant S_ .f32 0x7F800000#32
  let main_v55 : FVec F S128000x1024 .f32 := broadcastInDim S128000x1024 ![] bcast_S_S128000x1024 main_cst_20
  let main_v56 : IVec S128000x1024 1 := cmpf .olt main_v54 main_v55
  let main_c_21 : IVec S_ 1 := constantI S_ 1 1#1
  let main_v57 : IVec S_ 1 := (fun x v => Host.reduce IntOp.andi x v reducesTo_S128000x1024_S_d0_1 h_S_) main_v56 main_c_21
  let main_v58 : IVec S_ 1 := andi main_v53 main_v57
  let main_v59 : FVec F S128000 .f32 := Host.absf main_arg13
  let main_cst_22 : FVec F S_ .f32 := constant S_ .f32 0x7F800000#32
  let main_v60 : FVec F S128000 .f32 := broadcastInDim S128000 ![] bcast_S_S128000 main_cst_22
  let main_v61 : IVec S128000 1 := cmpf .olt main_v59 main_v60
  let main_c_23 : IVec S_ 1 := constantI S_ 1 1#1
  let main_v62 : IVec S_ 1 := (fun x v => Host.reduce IntOp.andi x v reducesTo_S128000_S_d0 h_S_) main_v61 main_c_23
  let main_v63 : IVec S_ 1 := andi main_v58 main_v62
  main_v63

def fn_part2 {F : FTy → Type} [FloatOps F] (main_arg8 : FVec F S3072x1024 .f32) (main_arg9 : FVec F S3072 .f32) (main_arg10 : FVec F S3072x1024 .f32) (main_arg11 : FVec F S3072 .f32) (main_arg12 : FVec F S128000x1024 .f32) (main_arg13 : FVec F S128000 .f32) (main_v33 : IVec S_ 1) : IVec S_ 1 :=
  let main_v34 : FVec F S3072x1024 .f32 := Host.absf main_arg8
  let main_cst_12 : FVec F S_ .f32 := constant S_ .f32 0x7F800000#32
  let main_v35 : FVec F S3072x1024 .f32 := broadcastInDim S3072x1024 ![] bcast_S_S3072x1024 main_cst_12
  let main_v36 : IVec S3072x1024 1 := cmpf .olt main_v34 main_v35
  let main_c_13 : IVec S_ 1 := constantI S_ 1 1#1
  let main_v37 : IVec S_ 1 := (fun x v => Host.reduce IntOp.andi x v reducesTo_S3072x1024_S_d0_1 h_S_) main_v36 main_c_13
  let main_v38 : IVec S_ 1 := andi main_v33 main_v37
  let main_v39 : FVec F S3072 .f32 := Host.absf main_arg9
  let main_cst_14 : FVec F S_ .f32 := constant S_ .f32 0x7F800000#32
  let main_v40 : FVec F S3072 .f32 := broadcastInDim S3072 ![] bcast_S_S3072 main_cst_14
  let main_v41 : IVec S3072 1 := cmpf .olt main_v39 main_v40
  let main_c_15 : IVec S_ 1 := constantI S_ 1 1#1
  let main_v42 : IVec S_ 1 := (fun x v => Host.reduce IntOp.andi x v reducesTo_S3072_S_d0 h_S_) main_v41 main_c_15
  let main_v43 : IVec S_ 1 := andi main_v38 main_v42
  let main_v44 : FVec F S3072x1024 .f32 := Host.absf main_arg10
  let main_cst_16 : FVec F S_ .f32 := constant S_ .f32 0x7F800000#32
  let main_v45 : FVec F S3072x1024 .f32 := broadcastInDim S3072x1024 ![] bcast_S_S3072x1024 main_cst_16
  let main_v46 : IVec S3072x1024 1 := cmpf .olt main_v44 main_v45
  let main_c_17 : IVec S_ 1 := constantI S_ 1 1#1
  let main_v47 : IVec S_ 1 := (fun x v => Host.reduce IntOp.andi x v reducesTo_S3072x1024_S_d0_1 h_S_) main_v46 main_c_17
  let main_v48 : IVec S_ 1 := andi main_v43 main_v47
  let main_v49 : FVec F S3072 .f32 := Host.absf main_arg11
  let main_cst_18 : FVec F S_ .f32 := constant S_ .f32 0x7F800000#32
  let main_v50 : FVec F S3072 .f32 := broadcastInDim S3072 ![] bcast_S_S3072 main_cst_18
  fn_part3 (F := F) main_arg12 main_arg13 main_v48 main_v49 main_v50

def fn_part1 {F : FTy → Type} [FloatOps F] (main_arg5 : FVec F S10 .f32) (main_arg6 : FVec F S1024x2048 .f32) (main_arg7 : FVec F S1024 .f32) (main_arg8 : FVec F S3072x1024 .f32) (main_arg9 : FVec F S3072 .f32) (main_arg10 : FVec F S3072x1024 .f32) (main_arg11 : FVec F S3072 .f32) (main_arg12 : FVec F S128000x1024 .f32) (main_arg13 : FVec F S128000 .f32) (main_v13 : IVec S_ 1) (main_v16 : IVec S10x2048 1) : IVec S_ 1 :=
  let main_c_5 : IVec S_ 1 := constantI S_ 1 1#1
  let main_v17 : IVec S_ 1 := (fun x v => Host.reduce IntOp.andi x v reducesTo_S10x2048_S_d0_1 h_S_) main_v16 main_c_5
  let main_v18 : IVec S_ 1 := andi main_v13 main_v17
  let main_v19 : FVec F S10 .f32 := Host.absf main_arg5
  let main_cst_6 : FVec F S_ .f32 := constant S_ .f32 0x7F800000#32
  let main_v20 : FVec F S10 .f32 := broadcastInDim S10 ![] bcast_S_S10 main_cst_6
  let main_v21 : IVec S10 1 := cmpf .olt main_v19 main_v20
  let main_c_7 : IVec S_ 1 := constantI S_ 1 1#1
  let main_v22 : IVec S_ 1 := (fun x v => Host.reduce IntOp.andi x v reducesTo_S10_S_d0 h_S_) main_v21 main_c_7
  let main_v23 : IVec S_ 1 := andi main_v18 main_v22
  let main_v24 : FVec F S1024x2048 .f32 := Host.absf main_arg6
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : IVec S1 32) (main_arg1 : FVec F S1x1x1024 .f32) (main_arg2 : FVec F S10x1024 .f32) (main_arg3 : FVec F S128000x1024 .f32) (main_arg4 : FVec F S10x2048 .f32) (main_arg5 : FVec F S10 .f32) (main_arg6 : FVec F S1024x2048 .f32) (main_arg7 : FVec F S1024 .f32) (main_arg8 : FVec F S3072x1024 .f32) (main_arg9 : FVec F S3072 .f32) (main_arg10 : FVec F S3072x1024 .f32) (main_arg11 : FVec F S3072 .f32) (main_arg12 : FVec F S128000x1024 .f32) (main_arg13 : FVec F S128000 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S10x1024 .f32 := Host.absf main_arg2
  let main_cst_0 : FVec F S_ .f32 := constant S_ .f32 0x7F800000#32
  let main_v5 : FVec F S10x1024 .f32 := broadcastInDim S10x1024 ![] bcast_S_S10x1024 main_cst_0
  let main_v6 : IVec S10x1024 1 := cmpf .olt main_v4 main_v5
  let main_c_1 : IVec S_ 1 := constantI S_ 1 1#1
  let main_v7 : IVec S_ 1 := (fun x v => Host.reduce IntOp.andi x v reducesTo_S10x1024_S_d0_1 h_S_) main_v6 main_c_1
  let main_v8 : IVec S_ 1 := andi main_v3 main_v7
  let main_v9 : FVec F S128000x1024 .f32 := Host.absf main_arg3
  let main_cst_2 : FVec F S_ .f32 := constant S_ .f32 0x7F800000#32
  let main_v10 : FVec F S128000x1024 .f32 := broadcastInDim S128000x1024 ![] bcast_S_S128000x1024 main_cst_2
  let main_v11 : IVec S128000x1024 1 := cmpf .olt main_v9 main_v10
  let main_c_3 : IVec S_ 1 := constantI S_ 1 1#1
  let main_v12 : IVec S_ 1 := (fun x v => Host.reduce IntOp.andi x v reducesTo_S128000x1024_S_d0_1 h_S_) main_v11 main_c_3
  let main_v13 : IVec S_ 1 := andi main_v8 main_v12
  let main_v14 : FVec F S10x2048 .f32 := Host.absf main_arg4
  let main_cst_4 : FVec F S_ .f32 := constant S_ .f32 0x7F800000#32
  let main_v15 : FVec F S10x2048 .f32 := broadcastInDim S10x2048 ![] bcast_S_S10x2048 main_cst_4
  let main_v16 : IVec S10x2048 1 := cmpf .olt main_v14 main_v15
  fn_part1 (F := F) main_arg5 main_arg6 main_arg7 main_arg8 main_arg9 main_arg10 main_arg11 main_arg12 main_arg13 main_v13 main_v16
-- ==== Kernel.lean ====
abbrev S1 : Shape := ⟨1, ![1]⟩
abbrev S1x1x1024 : Shape := ⟨3, ![1, 1, 1024]⟩
abbrev S10x1024 : Shape := ⟨2, ![10, 1024]⟩
abbrev S128000x1024 : Shape := ⟨2, ![128000, 1024]⟩
abbrev S10x2048 : Shape := ⟨2, ![10, 2048]⟩
abbrev S10 : Shape := ⟨1, ![10]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1024 : Shape := ⟨2, ![1, 1024]⟩
abbrev S1x10 : Shape := ⟨2, ![1, 10]⟩
abbrev S1x3072 : Shape := ⟨2, ![1, 3072]⟩
abbrev S1x128000 : Shape := ⟨2, ![1, 128000]⟩
abbrev S1x1 : Shape := ⟨2, ![1, 1]⟩
abbrev S1024x1024 : Shape := ⟨2, ![1024, 1024]⟩
abbrev S3200x1024 : Shape := ⟨2, ![3200, 1024]⟩
abbrev S1x3200 : Shape := ⟨2, ![1, 3200]⟩

abbrev nBuf : Space → Nat
  | .hbm => 33
  | .vmem => 22
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S10x1024, .f32⟩
  | .hbm, ⟨3, _⟩ => ⟨S128000x1024, .f32⟩
  | .hbm, ⟨4, _⟩ => ⟨S10x2048, .f32⟩
  | .hbm, ⟨5, _⟩ => ⟨S10, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072, .f32⟩
  | .hbm, ⟨10, _⟩ => ⟨S3072x1024, .f32⟩
  | .hbm, ⟨11, _⟩ => ⟨S3072, .f32⟩
  | .hbm, ⟨12, _⟩ => ⟨S128000x1024, .f32⟩
  | .hbm, ⟨13, _⟩ => ⟨S128000, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S1x1024, .f32⟩
  | .hbm, ⟨22, _⟩ => ⟨S1x1024, .f32⟩
  | .hbm, ⟨23, _⟩ => ⟨S1x10, .f32⟩
  | .hbm, ⟨24, _⟩ => ⟨S1x1024, .f32⟩
  | .hbm, ⟨25, _⟩ => ⟨S1x3072, .f32⟩
  | .hbm, ⟨26, _⟩ => ⟨S1x3072, .f32⟩
  | .hbm, ⟨27, _⟩ => ⟨S1x128000, .f32⟩
  | .hbm, ⟨28, _⟩ => ⟨S1x1024, .f32⟩
  | .hbm, ⟨29, _⟩ => ⟨S1x10, .f32⟩
  | .hbm, ⟨30, _⟩ => ⟨S1x128000, .f32⟩
  | .hbm, ⟨31, _⟩ => ⟨S1x128000, .f32⟩
  | .hbm, ⟨32, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S10x1024, .f32⟩
  | .local _ .vmem, ⟨3, _⟩ => ⟨S10x2048, .f32⟩
  | .local _ .vmem, ⟨4, _⟩ => ⟨S1x10, .f32⟩
  | .local _ .vmem, ⟨5, _⟩ => ⟨S1024x2048, .f32⟩
  | .local _ .vmem, ⟨6, _⟩ => ⟨S1x1024, .f32⟩
  | .local _ .vmem, ⟨7, _⟩ => ⟨S3072x1024, .f32⟩
  | .local _ .vmem, ⟨8, _⟩ => ⟨S1x3072, .f32⟩
  | .local _ .vmem, ⟨9, _⟩ => ⟨S3072x1024, .f32⟩
  | .local _ .vmem, ⟨10, _⟩ => ⟨S1x3072, .f32⟩
  | .local _ .vmem, ⟨11, _⟩ => ⟨S1x1024, .f32⟩
  | .local _ .vmem, ⟨12, _⟩ => ⟨S1x10, .f32⟩
  | .local _ .vmem, ⟨13, _⟩ => ⟨S1x1024, .f32⟩
  | .local _ .vmem, ⟨14, _⟩ => ⟨S3200x1024, .f32⟩
  | .local _ .vmem, ⟨15, _⟩ => ⟨S3200x1024, .f32⟩
  | .local _ .vmem, ⟨16, _⟩ => ⟨S1x3200, .f32⟩
  | .local _ .vmem, ⟨17, _⟩ => ⟨S1x3200, .f32⟩
  | .local _ .vmem, ⟨18, _⟩ => ⟨S1x3200, .f32⟩
  | .local _ .vmem, ⟨19, _⟩ => ⟨S1x3200, .f32⟩
  | .local _ .vmem, ⟨20, _⟩ => ⟨S1x128000, .f32⟩
  | .local _ .vmem, ⟨21, _⟩ => ⟨S1x128000, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11_0 : Ref sig .tc := ⟨.hbm, 28, rfl⟩
abbrev main_v11_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc1_stg0_0 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc2_stg0_0 : Ref sig .tc := ⟨.vmem, 20, rfl⟩
abbrev cc2_stg1_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc1_sem0_0 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc2_sem0_0 : DmaSem sig := 20
abbrev cc2_sem1_0 : DmaSem sig := 21

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3072x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![40], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3200x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S1x128000 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x128000 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  shapeCasts_S1_S_ : S1.ShapeCasts S_
  sliceFits_S128000x1024_S1x1024 : S128000x1024.Slices (fun _ => 0) S1x1024
  h_S_ : 0 < S_.numel
  shapeCasts_S1x1x1024_S1x1024 : S1x1x1024.ShapeCasts S1x1024
  shapeCasts_S10_S1x10 : S10.ShapeCasts S1x10
  shapeCasts_S1024_S1x1024 : S1024.ShapeCasts S1x1024
  shapeCasts_S3072_S1x3072 : S3072.ShapeCasts S1x3072
  shapeCasts_S128000_S1x128000 : S128000.ShapeCasts S1x128000
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S10x2048_S10x2048_0_0 : ∀ a, (![0, 0] : Fin 2 → Nat) a + S10x2048.size a ≤ S10x2048.size a
  h_S10x2048 : 0 < S10x2048.numel
  slices_S10x2048_o0_0_S10x1024 : S10x2048.Slices ![0, 0] S10x1024
  slices_S10x2048_o0_1024_S10x1024 : S10x2048.Slices ![0, 1024] S10x1024
  inb_S1x10_S1x10_0_0 : ∀ a, (![0, 0] : Fin 2 → Nat) a + S1x10.size a ≤ S1x10.size a
  h_S1x10 : 0 < S1x10.numel
  shapeCasts_S1x10_S1x10 : S1x10.ShapeCasts S1x10
  reduces_S1x10_S1 : S1x10.Reduces [1] S1
  shapeCasts_S1_S1x1 : S1.ShapeCasts S1x1
  broadcasts_S1x1_S1x10 : S1x1.Broadcasts S1x10
  inb_S10x1024_S10x1024_0_0 : ∀ a, (![0, 0] : Fin 2 → Nat) a + S10x1024.size a ≤ S10x1024.size a
  h_S10x1024 : 0 < S10x1024.numel
  inb_S1024x2048_S1024x2048_0_0 : ∀ a, (![0, 0] : Fin 2 → Nat) a + S1024x2048.size a ≤ S1024x2048.size a
  h_S1024x2048 : 0 < S1024x2048.numel
  slices_S1024x2048_o0_0_S1024x1024 : S1024x2048.Slices ![0, 0] S1024x1024
  slices_S1024x2048_o0_1024_S1024x1024 : S1024x2048.Slices ![0, 1024] S1024x1024
  inb_S3072x1024_S3072x1024_0_0 : ∀ a, (![0, 0] : Fin 2 → Nat) a + S3072x1024.size a ≤ S3072x1024.size a
  h_S3072x1024 : 0 < S3072x1024.numel
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  bitsLt_bf16_f32 : FTy.bits .bf16 < FTy.bits .f32
  inb_S3200x1024_S3200x1024_0_0 : ∀ a, (![0, 0] : Fin 2 → Nat) a + S3200x1024.size a ≤ S3200x1024.size a
  h_S3200x1024 : 0 < S3200x1024.numel
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  inb_S1x128000_S1x128000_0_0 : ∀ a, (![0, 0] : Fin 2 → Nat) a + S1x128000.size a ≤ S1x128000.size a
  h_S1x128000 : 0 < S1x128000.numel
  shapeCasts_S1x128000_S1x128000 : S1x128000.ShapeCasts S1x128000
  reduces_S1x128000_S1 : S1x128000.Reduces [1] S1
  broadcasts_S1x1_S1x128000 : S1x1.Broadcasts S1x128000
  bcast_S1x1024_S1x1x1024_1_2 : S1x1024.BroadcastsInDim S1x1x1024 (![1, 2] : Fin 2 → Fin S1x1x1024.rank)
  dot_S1x1024_S10x1024_S1x10_1_1_0_0_n_n_wf : DotDims.WF S1x1024 S10x1024 S1x10 [1] [1] [0] [0] [] []
  dot_S1x10_S10x1024_S1x1024_1_0_0_1_n_n_wf : DotDims.WF S1x10 S10x1024 S1x1024 [1] [0] [0] [1] [] []
  dot_S1x1024_S1024x1024_S1x1024_1_1_0_0_n_n_wf : DotDims.WF S1x1024 S1024x1024 S1x1024 [1] [1] [0] [0] [] []
  dot_S1x1024_S3072x1024_S1x3072_1_1_0_0_n_n_wf : DotDims.WF S1x1024 S3072x1024 S1x3072 [1] [1] [0] [0] [] []
  dot_S1x1024_S3200x1024_S1x3200_1_1_0_0_n_n_wf : DotDims.WF S1x1024 S3200x1024 S1x3200 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1024.size a ≤ S10x1024.size a
  hwx0_2 : ∀ i : grid0.Coords, EltTy.bits .f32 = 32 ∨ (Rect.block (s := S10x1024) S10x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x2048.size a ≤ S10x2048.size a
  hwx0_3 : ∀ i : grid0.Coords, EltTy.bits .f32 = 32 ∨ (Rect.block (s := S10x2048) S10x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10.size a ≤ S1x10.size a
  hwx0_4 : ∀ i : grid0.Coords, EltTy.bits .f32 = 32 ∨ (Rect.block (s := S1x10) S1x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x2048.size a ≤ S1024x2048.size a
  hwx0_5 : ∀ i : grid0.Coords, EltTy.bits .f32 = 32 ∨ (Rect.block (s := S1024x2048) S1024x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3072x1024.size a ≤ S3072x1024.size a
  hwx0_7 : ∀ i : grid0.Coords, EltTy.bits .f32 = 32 ∨ (Rect.block (s := S3072x1024) S3072x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3072.size a ≤ S1x3072.size a
  hwx0_8 : ∀ i : grid0.Coords, EltTy.bits .f32 = 32 ∨ (Rect.block (s := S1x3072) S1x3072.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3072x1024.size a ≤ S3072x1024.size a
  hwx0_9 : ∀ i : grid0.Coords, EltTy.bits .f32 = 32 ∨ (Rect.block (s := S3072x1024) S3072x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x3072.size a ≤ S1x3072.size a
  hwx0_10 : ∀ i : grid0.Coords, EltTy.bits .f32 = 32 ∨ (Rect.block (s := S1x3072) S1x3072.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x10.size a ≤ S1x10.size a
  hwx0_12 : ∀ i : grid0.Coords, EltTy.bits .f32 = 32 ∨ (Rect.block (s := S1x10) S1x10.size (cc0_transform_12 i) (hinb0_12 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1024.size a ≤ S1x1024.size a
  hwx1_0 : ∀ i : grid1.Coords, EltTy.bits .f32 = 32 ∨ (Rect.block (s := S1x1024) S1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3200x1024.size a ≤ S128000x1024.size a
  hwx1_1 : ∀ i : grid1.Coords, EltTy.bits .f32 = 32 ∨ (Rect.block (s := S128000x1024) S3200x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x128000.size a
  hwx1_2 : ∀ i : grid1.Coords, EltTy.bits .f32 = 32 ∨ (Rect.block (s := S1x128000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x3200.size a ≤ S1x128000.size a
  hwx1_3 : ∀ i : grid1.Coords, EltTy.bits .f32 = 32 ∨ (Rect.block (s := S1x128000) S1x3200.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x128000.size a ≤ S1x128000.size a
  hwx2_0 : ∀ i : grid2.Coords, EltTy.bits .f32 = 32 ∨ (Rect.block (s := S1x128000) S1x128000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128000.size a ≤ S1x128000.size a
  hwx2_1 : ∀ i : grid2.Coords, EltTy.bits .f32 = 32 ∨ (Rect.block (s := S1x128000) S1x128000.size (cc2_transform_1 i) (hinb2_1 i)).WholeWords (EltTy.packing .f32)

variable [Facts₀]

def dot_S1x1024_S10x1024_S1x10_1_1_0_0_n_n : DotDims S1x1024 S10x1024 S1x10 where
  lhsContracting := [1]
  rhsContracting := [1]
  lhsNonContracting := [0]
  rhsNonContracting := [0]
  lhsBatch := []
  rhsBatch := []
  wf := dot_S1x1024_S10x1024_S1x10_1_1_0_0_n_n_wf
def dot_S1x10_S10x1024_S1x1024_1_0_0_1_n_n : DotDims S1x10 S10x1024 S1x1024 where
  lhsContracting := [1]
  rhsContracting := [0]
  lhsNonContracting := [0]
  rhsNonContracting := [1]
  lhsBatch := []
  rhsBatch := []
  wf := dot_S1x10_S10x1024_S1x1024_1_0_0_1_n_n_wf
def dot_S1x1024_S1024x1024_S1x1024_1_1_0_0_n_n : DotDims S1x1024 S1024x1024 S1x1024 where
  lhsContracting := [1]
  rhsContracting := [1]
  lhsNonContracting := [0]
  rhsNonContracting := [0]
  lhsBatch := []
  rhsBatch := []
  wf := dot_S1x1024_S1024x1024_S1x1024_1_1_0_0_n_n_wf
def dot_S1x1024_S3072x1024_S1x3072_1_1_0_0_n_n : DotDims S1x1024 S3072x1024 S1x3072 where
  lhsContracting := [1]
  rhsContracting := [1]
  lhsNonContracting := [0]
  rhsNonContracting := [0]
  lhsBatch := []
  rhsBatch := []
  wf := dot_S1x1024_S3072x1024_S1x3072_1_1_0_0_n_n_wf
def dot_S1x1024_S3200x1024_S1x3200_1_1_0_0_n_n : DotDims S1x1024 S3200x1024 S1x3200 where
  lhsContracting := [1]
  rhsContracting := [1]
  lhsNonContracting := [0]
  rhsNonContracting := [0]
  lhsBatch := []
  rhsBatch := []
  wf := dot_S1x1024_S3200x1024_S1x3200_1_1_0_0_n_n_wf

abbrev win0_0 : Pipeline.Window sig grid0 :=
  Pipeline.Window.ofSpec (Memref.whole main_v4) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S10x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S10x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S1024x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S3072x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S1x3072.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S3072x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x3072.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11_0) S1x1024.size cc0_transform_11 reads0_11 true true 1 stage0_11 sem0_11
    hrank0 hreads0_11 hinb0_11 nbuf0_11 (Memref.isWhole_whole _) hwx0_11 hstage0_11

abbrev win0_12 : Pipeline.Window sig grid0 :=
  Pipeline.Window.ofSpec (Memref.whole main_v11_1) S1x10.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v11_0) S1x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg12) S3200x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v12) S1x128000.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v13) S1x128000.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S10x1024 : Shape := ⟨2, ![10, 1024]⟩
abbrev S128000x1024 : Shape := ⟨2, ![128000, 1024]⟩
abbrev S10x2048 : Shape := ⟨2, ![10, 2048]⟩
abbrev S10 : Shape := ⟨1, ![10]⟩
abbrev S1024x2048 : Shape := ⟨2, ![1024, 2048]⟩
abbrev S1024 : Shape := ⟨1, ![1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1024 : Shape := ⟨2, ![1, 1024]⟩
abbrev S1x2048 : Shape := ⟨2, ![1, 2048]⟩
abbrev S2048x10 : Shape := ⟨2, ![2048, 10]⟩
abbrev S1x10 : Shape := ⟨2, ![1, 10]⟩
abbrev S1x1 : Shape := ⟨2, ![1, 1]⟩
abbrev S2048x1024 : Shape := ⟨2, ![2048, 1024]⟩
abbrev S1024x3072 : Shape := ⟨2, ![1024, 3072]⟩
abbrev S1x3072 : Shape := ⟨2, ![1, 3072]⟩
abbrev S1024x128000 : Shape := ⟨2, ![1024, 128000]⟩
abbrev S1x128000 : Shape := ⟨2, ![1, 128000]⟩

abbrev nBuf : Space → Nat
  | .hbm => 121
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S10x1024, .f32⟩
  | .hbm, ⟨3, _⟩ => ⟨S128000x1024, .f32⟩
  | .hbm, ⟨4, _⟩ => ⟨S10x2048, .f32⟩
  | .hbm, ⟨5, _⟩ => ⟨S10, .f32⟩
  | .hbm, ⟨6, _⟩ => ⟨S1024x2048, .f32⟩
  | .hbm, ⟨7, _⟩ => ⟨S1024, .f32⟩
  | .hbm, ⟨8, _⟩ => ⟨S3072x1024, .f32⟩
  | .hbm, ⟨9, _⟩ => ⟨S3072, .f32⟩
  | .hbm, ⟨10, _⟩ => ⟨S3072x1024, .f32⟩
  | .hbm, ⟨11, _⟩ => ⟨S3072, .f32⟩
  | .hbm, ⟨12, _⟩ => ⟨S128000x1024, .f32⟩
  | .hbm, ⟨13, _⟩ => ⟨S128000, .f32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S_, .i1⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S1x1024, .f32⟩
  | .hbm, ⟨29, _⟩ => ⟨S1024, .f32⟩
  | .hbm, ⟨30, _⟩ => ⟨S1x1024, .f32⟩
  | .hbm, ⟨31, _⟩ => ⟨S1x1024, .f32⟩
  | .hbm, ⟨32, _⟩ => ⟨S1x2048, .f32⟩
  | .hbm, ⟨33, _⟩ => ⟨S2048x10, .f32⟩
  | .hbm, ⟨34, _⟩ => ⟨S1x10, .f32⟩
  | .hbm, ⟨35, _⟩ => ⟨S1x10, .f32⟩
  | .hbm, ⟨36, _⟩ => ⟨S1x10, .f32⟩
  | .hbm, ⟨37, _⟩ => ⟨S_, .f32⟩
  | .hbm, ⟨38, _⟩ => ⟨S1, .f32⟩
  | .hbm, ⟨39, _⟩ => ⟨S_, .f32⟩
  | .hbm, ⟨40, _⟩ => ⟨S1, .f32⟩
  | .hbm, ⟨41, _⟩ => ⟨S1, .f32⟩
  | .hbm, ⟨42, _⟩ => ⟨S1x1, .f32⟩
  | .hbm, ⟨43, _⟩ => ⟨S1x10, .f32⟩
  | .hbm, ⟨44, _⟩ => ⟨S1x10, .f32⟩
  | .hbm, ⟨45, _⟩ => ⟨S1x10, .f32⟩
  | .hbm, ⟨46, _⟩ => ⟨S_, .f32⟩
  | .hbm, ⟨47, _⟩ => ⟨S1, .f32⟩
  | .hbm, ⟨48, _⟩ => ⟨S1x1, .f32⟩
  | .hbm, ⟨49, _⟩ => ⟨S1x10, .f32⟩
  | .hbm, ⟨50, _⟩ => ⟨S1x10, .f32⟩
  | .hbm, ⟨51, _⟩ => ⟨S1x1024, .f32⟩
  | .hbm, ⟨52, _⟩ => ⟨S1x2048, .f32⟩
  | .hbm, ⟨53, _⟩ => ⟨S2048x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1024x3072, .f32⟩
  | .hbm, ⟨61, _⟩ => ⟨S1x3072, .f32⟩
  | .hbm, ⟨62, _⟩ => ⟨S1x3072, .f32⟩
  | .hbm, ⟨63, _⟩ => ⟨S1x3072, .f32⟩
  | .hbm, ⟨64, _⟩ => ⟨S1024x3072, .f32⟩
  | .hbm, ⟨65, _⟩ => ⟨S1x3072, .f32⟩
  | .hbm, ⟨66, _⟩ => ⟨S1x3072, .f32⟩
  | .hbm, ⟨67, _⟩ => ⟨S1x3072, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S_, .f32⟩
  | .hbm, ⟨74, _⟩ => ⟨S1x1024, .f32⟩
  | .hbm, ⟨75, _⟩ => ⟨S1x1024, .f32⟩
  | .hbm, ⟨76, _⟩ => ⟨S_, .f32⟩
  | .hbm, ⟨77, _⟩ => ⟨S1x1024, .f32⟩
  | .hbm, ⟨78, _⟩ => ⟨S1x1024, .f32⟩
  | .hbm, ⟨79, _⟩ => ⟨S1x1024, .f32⟩
  | .hbm, ⟨80, _⟩ => ⟨S1x1024, .f32⟩
  | .hbm, ⟨81, _⟩ => ⟨S1x1024, .f32⟩
  | .hbm, ⟨82, _⟩ => ⟨S1x1024, .f32⟩
  | .hbm, ⟨83, _⟩ => ⟨S1x1024, .f32⟩
  | .hbm, ⟨84, _⟩ => ⟨S_, .f32⟩
  | .hbm, ⟨85, _⟩ => ⟨S1x1024, .f32⟩
  | .hbm, ⟨86, _⟩ => ⟨S1x1024, .f32⟩
  | .hbm, ⟨87, _⟩ => ⟨S_, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S_, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1024x128000, .f32⟩
  | .hbm, ⟨102, _⟩ => ⟨S1x128000, .f32⟩
  | .hbm, ⟨103, _⟩ => ⟨S1x128000, .f32⟩
  | .hbm, ⟨104, _⟩ => ⟨S1x128000, .f32⟩
  | .hbm, ⟨105, _⟩ => ⟨S_, .f32⟩
  | .hbm, ⟨106, _⟩ => ⟨S1, .f32⟩
  | .hbm, ⟨107, _⟩ => ⟨S_, .f32⟩
  | .hbm, ⟨108, _⟩ => ⟨S1, .f32⟩
  | .hbm, ⟨109, _⟩ => ⟨S1, .f32⟩
  | .hbm, ⟨110, _⟩ => ⟨S1x1, .f32⟩
  | .hbm, ⟨111, _⟩ => ⟨S1x128000, .f32⟩
  | .hbm, ⟨112, _⟩ => ⟨S1x128000, .f32⟩
  | .hbm, ⟨113, _⟩ => ⟨S1x128000, .f32⟩
  | .hbm, ⟨114, _⟩ => ⟨S_, .f32⟩
  | .hbm, ⟨115, _⟩ => ⟨S1, .f32⟩
  | .hbm, ⟨116, _⟩ => ⟨S1x1, .f32⟩
  | .hbm, ⟨117, _⟩ => ⟨S1x1, .f32⟩
  | .hbm, ⟨118, _⟩ => ⟨S1x128000, .f32⟩
  | .hbm, ⟨119, _⟩ => ⟨S1x128000, .f32⟩
  | .hbm, ⟨120, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_c_1 : Ref sig .tc := ⟨.hbm, 20, rfl⟩
abbrev main_c_2 : Ref sig .tc := ⟨.hbm, 21, rfl⟩
abbrev main_v4 : Ref sig .tc := ⟨.hbm, 22, rfl⟩
abbrev main_c_3 : Ref sig .tc := ⟨.hbm, 23, rfl⟩
abbrev main_c_4 : Ref sig .tc := ⟨.hbm, 24, rfl⟩
abbrev main_v5 : Ref sig .tc := ⟨.hbm, 25, rfl⟩
abbrev main_c_5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst : Ref sig .tc := ⟨.hbm, 37, rfl⟩
abbrev main_v16 : Ref sig .tc := ⟨.hbm, 38, rfl⟩
abbrev main_cst_6 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_cst_7 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_call0_cst : Ref sig .tc := ⟨.hbm, 57, rfl⟩
abbrev main_call0_v0 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_8 : Ref sig .tc := ⟨.hbm, 73, rfl⟩
abbrev main_v47 : Ref sig .tc := ⟨.hbm, 74, rfl⟩
abbrev main_v48 : Ref sig .tc := ⟨.hbm, 75, rfl⟩
abbrev main_cst_9 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_10 : Ref sig .tc := ⟨.hbm, 84, rfl⟩
abbrev main_v56 : Ref sig .tc := ⟨.hbm, 85, rfl⟩
abbrev main_v57 : Ref sig .tc := ⟨.hbm, 86, rfl⟩
abbrev main_cst_11 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_12 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_cst : Ref sig .tc := ⟨.hbm, 105, rfl⟩
abbrev main_call1_v0 : Ref sig .tc := ⟨.hbm, 106, rfl⟩
abbrev main_call1_cst_0 : Ref sig .tc := ⟨.hbm, 107, rfl⟩
abbrev main_call1_v1 : Ref sig .tc := ⟨.hbm, 108, rfl⟩
abbrev main_call1_v2 : Ref sig .tc := ⟨.hbm, 109, rfl⟩
abbrev main_call1_v3 : Ref sig .tc := ⟨.hbm, 110, rfl⟩
abbrev main_call1_v4 : Ref sig .tc := ⟨.hbm, 111, rfl⟩
abbrev main_call1_v5 : Ref sig .tc := ⟨.hbm, 112, rfl⟩
abbrev main_call1_v6 : Ref sig .tc := ⟨.hbm, 113, rfl⟩
abbrev main_call1_cst_1 : Ref sig .tc := ⟨.hbm, 114, rfl⟩
abbrev main_call1_v7 : Ref sig .tc := ⟨.hbm, 115, rfl⟩
abbrev main_call1_v8 : Ref sig .tc := ⟨.hbm, 116, rfl⟩
abbrev main_call1_v9 : Ref sig .tc := ⟨.hbm, 117, rfl⟩
abbrev main_call1_v10 : Ref sig .tc := ⟨.hbm, 118, rfl⟩
abbrev main_v74 : Ref sig .tc := ⟨.hbm, 119, rfl⟩
abbrev main_v75 : Ref sig .tc := ⟨.hbm, 120, rfl⟩

abbrev nD : Nat := 1
abbrev τ : Topo := Topo.v7x

variable {F : FTy → Type} [FloatOps F]

class Facts₀ : Prop where
  shapeCasts_S1_S_ : S1.ShapeCasts S_
  sliceFits_S128000x1024_S1x1024 : S128000x1024.Slices (fun _ => 0) S1x1024
  h_S_ : 0 < S_.numel
  shapeCasts_S1x1024_S1024 : S1x1024.ShapeCasts S1024
  bcast_S1024_S1x1024_1 : S1024.BroadcastsInDim S1x1024 (![1] : Fin 1 → Fin S1x1024.rank)
  shapeCasts_S1x1x1024_S1x1024 : S1x1x1024.ShapeCasts S1x1024
  concatenates_S1x1024_S1x1024_S1x2048_d1 : Shape.Concatenates [S1x1024, S1x1024] S1x2048 1
  transposes_S10x2048_S2048x10_1_0 : S10x2048.Transposes [1, 0] S2048x10
  bcast_S10_S1x10_1 : S10.BroadcastsInDim S1x10 (![1] : Fin 1 → Fin S1x10.rank)
  reducesTo_S1x10_S1_d1 : S1x10.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x10_0_1 : S1x1.BroadcastsInDim S1x10 (![0, 1] : Fin 2 → Fin S1x10.rank)
  transposes_S1024x2048_S2048x1024_1_0 : S1024x2048.Transposes [1, 0] S2048x1024
  bcast_S_S1x1024 : S_.BroadcastsInDim S1x1024 (![] : Fin 0 → Fin S1x1024.rank)
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S128000x1024_S1024x128000_1_0 : S128000x1024.Transposes [1, 0] S1024x128000
  bcast_S128000_S1x128000_1 : S128000.BroadcastsInDim S1x128000 (![1] : Fin 1 → Fin S1x128000.rank)
  reducesTo_S1x128000_S1_d1 : S1x128000.ReducesTo [1] S1
  bcast_S1x1_S1x128000_0_1 : S1x1.BroadcastsInDim S1x128000 (![0, 1] : Fin 2 → Fin S1x128000.rank)
  bcast_S1x1024_S1x1x1024_1_2 : S1x1024.BroadcastsInDim S1x1x1024 (![1, 2] : Fin 2 → Fin S1x1x1024.rank)
  dot_S1x2048_S2048x10_S1x10_1_0_0_1_n_n_wf : DotDims.WF S1x2048 S2048x10 S1x10 [1] [0] [0] [1] [] []
  dot_S1x10_S10x1024_S1x1024_1_0_0_1_n_n_wf : DotDims.WF S1x10 S10x1024 S1x1024 [1] [0] [0] [1] [] []
  dot_S1x2048_S2048x1024_S1x1024_1_0_0_1_n_n_wf : DotDims.WF S1x2048 S2048x1024 S1x1024 [1] [0] [0] [1] [] []
  dot_S1x1024_S1024x3072_S1x3072_1_0_0_1_n_n_wf : DotDims.WF S1x1024 S1024x3072 S1x3072 [1] [0] [0] [1] [] []
  dot_S1x1024_S1024x128000_S1x128000_1_0_0_1_n_n_wf : DotDims.WF S1x1024 S1024x128000 S1x128000 [1] [0] [0] [1] [] []

variable [Facts₀]

def dot_S1x2048_S2048x10_S1x10_1_0_0_1_n_n : DotDims S1x2048 S2048x10 S1x10 where
  lhsContracting := [1]
  rhsContracting := [0]
  lhsNonContracting := [0]
  rhsNonContracting := [1]
  lhsBatch := []
  rhsBatch := []
  wf := dot_S1x2048_S2048x10_S1x10_1_0_0_1_n_n_wf
def dot_S1x10_S10x1024_S1x1024_1_0_0_1_n_n : DotDims S1x10 S10x1024 S1x1024 where
  lhsContracting := [1]
  rhsContracting := [0]
  lhsNonContracting := [0]
  rhsNonContracting := [1]
  lhsBatch := []
  rhsBatch := []
  wf := dot_S1x10_S10x1024_S1x1024_1_0_0_1_n_n_wf
def dot_S1x2048_S2048x1024_S1x1024_1_0_0_1_n_n : DotDims S1x2048 S2048x1024 S1x1024 where
  lhsContracting := [1]
  rhsContracting := [0]
  lhsNonContracting := [0]
  rhsNonContracting := [1]
  lhsBatch := []
  rhsBatch := []
  wf := dot_S1x2048_S2048x1024_S1x1024_1_0_0_1_n_n_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x128000_S1x128000_1_0_0_1_n_n : DotDims S1x1024 S1024x128000 S1x128000 where
  lhsContracting := [1]
  rhsContracting := [0]
  lhsNonContracting := [0]
  rhsNonContracting := [1]
  lhsBatch := []
  rhsBatch := []
  wf := dot_S1x1024_S1024x128000_S1x128000_1_0_0_1_n_n_wf

class Facts : Prop extends Facts₀ where

variable [Facts]
-- ==== Proof.KRegion0.lean ====
import proofs.«431030_j74440373174878_3_alg».proof.Proof.Gen.Kernel.Launch
import proofs.«431030_j74440373174878_3_alg».proof.Proof.Gen.Kernel.Skeleton
import proofs.«431030_j74440373174878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r1x1024 : Rect S1x1024 := Rect.unit (s := S1x1024) ![0, 0] S1x1024.size inb_S1x1024_S1x1024_0_0
abbrev r10x1024 : Rect S10x1024 := Rect.unit (s := S10x1024) ![0, 0] S10x1024.size inb_S10x1024_S10x1024_0_0
abbrev r10x2048 : Rect S10x2048 := Rect.unit (s := S10x2048) ![0, 0] S10x2048.size inb_S10x2048_S10x2048_0_0
abbrev r1x10 : Rect S1x10 := Rect.unit (s := S1x10) ![0, 0] S1x10.size inb_S1x10_S1x10_0_0
abbrev r1024x2048 : Rect S1024x2048 := Rect.unit (s := S1024x2048) ![0, 0] S1024x2048.size inb_S1024x2048_S1024x2048_0_0
abbrev r3072x1024 : Rect S3072x1024 := Rect.unit (s := S3072x1024) ![0, 0] S3072x1024.size inb_S3072x1024_S3072x1024_0_0
abbrev r1x3072 : Rect S1x3072 := Rect.unit (s := S1x3072) ![0, 0] S1x3072.size inb_S1x3072_S1x3072_0_0

def out0_11 (x0 x1 : Vec F S1x1024 .f32) (x2 : Vec F S10x1024 .f32) (x3 : Vec F S10x2048 .f32) (x4 : Vec F S1x10 .f32) (x5 : Vec F S1024x2048 .f32) (x6 : Vec F S1x1024 .f32) (x7 : Vec F S3072x1024 .f32) (x8 : Vec F S1x3072 .f32) (x9 : Vec F S3072x1024 .f32) (x10 : Vec F S1x3072 .f32) : Vec F S1x1024 .f32 :=
  View.canon [⟨r1x1024, k0_pay1 (k0_pay3 (View.ld x1 r1x1024)) (k0_pay5 (View.ld x0 r1x1024) (View.ld x1 r1x1024) (View.ld x3 r10x2048) (View.ld x4 r1x10) (View.ld x2 r10x1024) (View.ld x5 r1024x2048) (View.ld x6 r1x1024)) (k0_pay6) (View.ld x7 r3072x1024) (View.ld x8 r1x3072) (View.ld x9 r3072x1024) (View.ld x10 r1x3072)⟩]

def out0_12 (x0 x1 : Vec F S1x1024 .f32) (x3 : Vec F S10x2048 .f32) (x4 : Vec F S1x10 .f32) : Vec F S1x10 .f32 :=
  View.canon [⟨r1x10, k0_pay4 (View.ld x0 r1x1024) (View.ld x1 r1x1024) (View.ld x3 r10x2048) (View.ld x4 r1x10)⟩]

set_option maxHeartbeats 4000000 in
theorem sound_kernel0 {c : Dev nD} {E : Set ℕ} {i : grid0.Coords} {arg1 arg2 arg7 arg12 : Memref sig .tc .vmem S1x1024 .f32} {arg3 : Memref sig .tc .vmem S10x1024 .f32}
    {arg4 : Memref sig .tc .vmem S10x2048 .f32} {arg5 arg13 : Memref sig .tc .vmem S1x10 .f32} {arg6 : Memref sig .tc .vmem S1024x2048 .f32}
    {arg8 arg10 : Memref sig .tc .vmem S3072x1024 .f32} {arg9 arg11 : Memref sig .tc .vmem S1x3072 .f32}
    {harg1 : arg1.IsWhole} {harg2 : arg2.IsWhole} {harg3 : arg3.IsWhole} {harg4 : arg4.IsWhole} {harg5 : arg5.IsWhole} {harg6 : arg6.IsWhole} {harg7 : arg7.IsWhole}
    {harg8 : arg8.IsWhole} {harg9 : arg9.IsWhole} {harg10 : arg10.IsWhole} {harg11 : arg11.IsWhole} {harg12 : arg12.IsWhole} {harg13 : arg13.IsWhole}
    {x0 x1 x6 : Vec F S1x1024 .f32} {x2 : Vec F S10x1024 .f32} {x3 : Vec F S10x2048 .f32} {x4 : Vec F S1x10 .f32} {x5 : Vec F S1024x2048 .f32}
    {x7 x9 : Vec F S3072x1024 .f32} {x8 x10 : Vec F S1x3072 .f32} (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out0_11 x0 x1 x2 x3 x4 x5 x6 x7 x8 x9 x10) ∗ owns (c : Thread nD τ) arg13 fullShare (out0_12 x0 x1 x3 x4)) -∗ K ⟨⟩))
      ⊢ wp frame (wpE (defs₀ (F := F)) Variants.none c none) E (cc0_decoder_kernel i arg1 harg1 arg2 harg2 arg3 harg3 arg4 harg4 arg5 harg5 arg6 harg6 arg7 harg7 arg8 harg8 arg9 harg9 arg10 harg10 arg11 harg11 arg12 harg12 arg13 harg13) K := by
  simp only [cc0_decoder_kernel_eq_skeleton]; unfold cc0_decoder_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (View.cover_of_tiled _ S1x1024.size (by rfl))
  iexists _; isplitr
  swap; · iexact H12
  ipureintro
  exact View.read_writes_eq_canon _ _ _ (View.cover_of_tiled _ S1x10.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 3 t) (iblk0 V c 4 t)
  Φ _ := Pipeline.ΦA spec0 c
  q _ := fullShare
  owed _ := 0

theorem before0 (c : Dev nD) (w : Fin cfg0.W) (hw : (cfg0.win w).isOut = false) (t : Fin cfg0.N) (d) :
    (dat0 V c).before w t d = (dat0 V c).after w t := by
  match w, hw with
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ =>
    exact ((dat0 V c).before_in_eq_fetched _ rfl (fun _ => rfl) (fun _ _ _ => rfl) (fun _ => by unfold Dat.blockOf; dsimp only [dat0, iblk0]) t d).trans
      (by unfold Dat.fetched Dat.blockOf; dsimp only [dat0, iblk0]; rfl)
  | ⟨11, _⟩, h | ⟨12, _⟩, h => exact absurd h (by decide +revert)

theorem body_obligation0 (c : Dev nD) : BodyObligation (dat0 (F := F) V c) (defs₀ (F := F)) Variants.none () Set.univ := fun t => by
  show _ ⊢ wp _ _ _ (bodyAt0 t) _
  rw [bigSep_W0, bigSep_W0]
  simp (disch := exact rfl) only [before0]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply sound_kernel0 _
  iframe H0 H1 H2 H3 H4 H5 H6 H7 H8 H9 H10
  isplitl [H11]; · iexists _; iexact H11
  isplitl [H12]; · iexists _; iexact H12
  iintro H
  iframe
  iexact Ho

end Cert.Kernel.Hand

end
-- ==== Proof.KRegion1.lean ====
import proofs.«431030_j74440373174878_3_alg».proof.Proof.Gen.Kernel.Launch
import proofs.«431030_j74440373174878_3_alg».proof.Proof.Gen.Kernel.Skeleton
import proofs.«431030_j74440373174878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hidRect1 : Rect S1x1024 := Rect.unit (s := S1x1024) ![0, 0] S1x1024.size inb_S1x1024_S1x1024_0_0
abbrev tileRect1 : Rect S3200x1024 := Rect.unit (s := S3200x1024) ![0, 0] S3200x1024.size inb_S3200x1024_S3200x1024_0_0
abbrev rowRect1 : Rect S1x3200 := Rect.unit (s := S1x3200) ![0, 0] S1x3200.size inb_S1x3200_S1x3200_0_0

def out1_3 (x0 : Vec F S1x1024 .f32) (x1 : Vec F S3200x1024 .f32) (x2 : Vec F S1x3200 .f32) : Vec F S1x3200 .f32 :=
  View.canon [⟨rowRect1, k1_pay1 (View.ld x0 hidRect1) (View.ld x1 tileRect1) (View.ld x2 rowRect1)⟩]

set_option maxHeartbeats 1000000 in
theorem sound_kernel1 {c : Dev nD} {E : Set ℕ} {i : grid1.Coords} {arg1 : Memref sig .tc .vmem S1x1024 .f32} {harg1 : arg1.IsWhole}
    {arg2 : Memref sig .tc .vmem S3200x1024 .f32} {harg2 : arg2.IsWhole} {arg3 arg4 : Memref sig .tc .vmem S1x3200 .f32} {harg3 : arg3.IsWhole}
    {harg4 : arg4.IsWhole} {x0 : Vec F S1x1024 .f32} {x1 : Vec F S3200x1024 .f32} {x2 : Vec F S1x3200 .f32} (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_logits_kernel i arg1 harg1 arg2 harg2 arg3 harg3 arg4 harg4) K := by
  simp only [cc1_logits_kernel_eq_skeleton]; unfold cc1_logits_kernel_skel
  unfold owns
  iintro ⟨⟨%f0, %hf0, H0⟩, ⟨%f1, %hf1, H1⟩, ⟨%f2, %hf2, H2⟩, ⟨%d3, %f3, -, H3⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x3200.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem before1 (c : Dev nD) (w : Fin cfg1.W) (hw : (cfg1.win w).isOut = false) (t : Fin cfg1.N) (d) :
    (dat1 V c).before w t d = (dat1 V c).after w t := by
  match w, hw with
  | ⟨0, _⟩, _ | ⟨1, _⟩, _ | ⟨2, _⟩, _ =>
    exact ((dat1 V c).before_in_eq_fetched _ rfl (fun _ => rfl) (fun _ _ _ => rfl) (fun _ => by unfold Dat.blockOf; dsimp only [dat1, iblk1]) t d).trans
      (by unfold Dat.fetched Dat.blockOf; dsimp only [dat1, iblk1]; rfl)
  | ⟨3, _⟩, h => exact absurd h (by decide +revert)

theorem body_obligation1 (c : Dev nD) : BodyObligation (dat1 (F := F) V c) (defs₀ (F := F)) Variants.none () Set.univ := fun t => by
  show _ ⊢ wp _ _ _ (bodyAt1 t) _
  rw [bigSep_W1, bigSep_W1]
  simp (disch := exact rfl) only [before1]
  dsimp only [dat1]
  iintro ⟨HΦ, Ho, ⟨%d0, H0⟩, ⟨%d1, H1⟩, ⟨%d2, H2⟩, ⟨%d3, H3⟩⟩
  iapply sound_kernel1 _
  iframe H0 H1 H2
  isplitl [H3]; · iexists _; iexact H3
  iintro H
  iframe
  iexact Ho

end Cert.Kernel.Hand

end
-- ==== Proof.KRegion2.lean ====
import proofs.«431030_j74440373174878_3_alg».proof.Proof.Gen.Kernel.Launch
import proofs.«431030_j74440373174878_3_alg».proof.Proof.Gen.Kernel.Skeleton
import proofs.«431030_j74440373174878_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowRect2 : Rect S1x128000 := Rect.unit (s := S1x128000) ![0, 0] S1x128000.size inb_S1x128000_S1x128000_0_0

def out2_1 (x0 : Vec F S1x128000 .f32) : Vec F S1x128000 .f32 :=
  View.canon [⟨rowRect2, k2_pay1 (View.ld x0 rowRect2)⟩]

set_option maxHeartbeats 1000000 in
theorem sound_kernel2 {c : Dev nD} {E : Set ℕ} {i : grid2.Coords} {arg1 : Memref sig .tc .vmem S1x128000 .f32} {harg1 : arg1.IsWhole}
    {arg2 : Memref sig .tc .vmem S1x128000 .f32} {harg2 : arg2.IsWhole} {x0 : Vec F S1x128000 .f32} (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_logsoftmax_kernel i arg1 harg1 arg2 harg2) K := by
  simp only [cc2_logsoftmax_kernel_eq_skeleton]; unfold cc2_logsoftmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S1x128000.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem before2 (c : Dev nD) (w : Fin cfg2.W) (hw : (cfg2.win w).isOut = false) (t : Fin cfg2.N) (d) :
    (dat2 V c).before w t d = (dat2 V c).after w t := by
  match w, hw with
  | ⟨0, _⟩, _ => exact ((dat2 V c).before_in_eq_fetched _ rfl (fun _ => rfl) (fun _ _ _ => rfl) (fun _ => by unfold Dat.blockOf; dsimp only [dat2, iblk2]) t d).trans (by unfold Dat.fetched Dat.blockOf; dsimp only [dat2, iblk2]; rfl)
  | ⟨1, _⟩, h => exact absurd h (by decide +revert)

theorem body_obligation2 (c : Dev nD) : BodyObligation (dat2 (F := F) V c) (defs₀ (F := F)) Variants.none () Set.univ := fun t => by
  show _ ⊢ wp _ _ _ (bodyAt2 t) _
  rw [bigSep_W2, bigSep_W2]
  simp (disch := exact rfl) only [before2]
  dsimp only [dat2]
  iintro ⟨HΦ, Ho, ⟨%d0, H0⟩, ⟨%d1, H1⟩⟩
  iapply sound_kernel2 _
  iframe H0
  isplitl [H1]; · iexists _; iexact H1
  iintro ⟨H0, H1⟩
  iframe
  iexact Ho

end Cert.Kernel.Hand

end
-- ==== Proof.KRun.lean ====
import proofs.«431030_j74440373174878_3_alg».proof.Proof.KRegion0
import proofs.«431030_j74440373174878_3_alg».proof.Proof.KRegion1
import proofs.«431030_j74440373174878_3_alg».proof.Proof.KRegion2

set_option maxRecDepth 16384

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
abbrev V3 : (c : Dev nD) → (b : Ref sig .tc) → Buf (Elt F) ((c : Thread nD τ).loc b) := fun c b => W3 m ρ c b
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N :=
  Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) :=
  Pipeline.withArrays_of_ne spec2 c _ _ b hb
abbrev V4 : (c : Dev nD) → (b : Ref sig .tc) → Buf (Elt F) ((c : Thread nD τ).loc b) := fun c b => W4 m ρ c b
abbrev W5 : Dev nD → Valuation τ sig (Elt F) := fun c => StableHlo.after hostOps3 (W4 m ρ c)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ts (c : Dev nD) (W : Valuation τ sig (Elt F)) : sProp 𝕄 := iprop(StableHlo.held (c : Thread nD τ) (Pipeline.ucRefs τ sig) W ∗ R c)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Wx (p : Fin 3) (Wi : Dev nD → Valuation τ sig (Elt F)) (c : Dev nD) : Valuation τ sig (Elt F) :=
  Pipeline.withArrays (cfgs p).spec c (Wi c) fun w => (pdats m ρ p c).arrAt w (cfgs p).N

set_option backward.isDefEq.respectTransparency.types false in
/-- A call changes its windows' arrays and no other unscoped buffer. -/
def reg (p : Fin 3) (lf : Pipeline.LaunchFacts (nD := nD) (τ := τ) cfgs p) (Wi : Dev nD → Valuation τ sig (Elt F))
    (hb : ∀ c, BodyObligation (pdats m ρ p c) defs₀ 𝒱₀ () Set.univ)
    (hw : ∀ c w, (pdats m ρ p c).q w = fullShare ∧ (pdats m ρ p c).A w = Wi c (Proc.devRef .tc (Pipeline.arrRef (cfgs p).spec w)))
    (ht : ∀ c t, (pdats m ρ p c).owed t = 0 ∧ (pdats m ρ p c).recorded t = Set.univ ∧ (pdats m ρ p c).Φ t = Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => (ht c t).1
  pre c := ts c (Wi c)
  post c := ts c (Wx m ρ p Wi c)
  X c := iprop(∃ r, prngReg c r)
  Y c := iprop(∃ r, prngReg c r)
  Z c := Pipeline.unscopedRest (cfgs p).spec c fun b => Wi c (Proc.devRef .tc b)
  hentry c := by
    have hsplit := Pipeline.arrays_of_unscopedBufs (p := p) (pcfgs (F := F)) adm (pdats m ρ) lf.win lf.arr_whole c
      ((pdats m ρ p c).share_full fun w => (hw c w).1) (fun b => Wi c (Proc.devRef .tc b)) fun w => (hw c w).2
    rw [Pipeline.unscopedBufs_held] at hsplit
    unfold Pipeline.prefHeld Pipeline.Dat.owesAt Pipeline.owesWithin Pipeline.Dat.bound
    rw [Finset.univ_eq_empty, BI.bigSep_empty, (ht c 0).1, (ht c 0).2.1]
    iintro ⟨⟨Hub, Hp, %W, HO⟩, -, -⟩
    ihave ⟨Ha, Hrest⟩ := hsplit $$ Hub
    imodintro
    iframe Ha Hp Hrest
    isplitr; · iempintro
    iexists W; iframe HO
    ipureintro; exact fun _ _ => Or.inl trivial
  hin c := by
    rw [(ht c 0).2.2]; unfold Pipeline.ΦA
    iintro ⟨Hp, -, Hr⟩
    iframe
  hout c := by
    rw [Pipeline.ownSems0_none, (ht c _).2.2]; unfold Pipeline.ΦA
    iintro ⟨Hr, Hp⟩
    iframe; iempintro
  hexit c := by
    have hjoin := Pipeline.unscopedBufs_of_arrays (p := p) (pcfgs (F := F)) adm
      lf.win lf.arr_whole c (pdats m ρ) ((pdats m ρ p c).share_full fun w => (hw c w).1)
      (fun b => Wi c (Proc.devRef .tc b)) (fun b => Wx m ρ p Wi c (Proc.devRef .tc b)) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [(ht c _).1]
    iintro ⟨Ha, ⟨%W, -, HO⟩, HY, Hrest⟩
    imodintro
    isplitl [Ha Hrest]
    · iapply hjoin; iframe
    isplitl [HY]; · iexact HY
    iexists W; iexact HO

abbrev segs : List (Pipeline.Seg (pcfgs (F := F)) adm (pdats m ρ) () defs₀ 𝒱₀ L lv) :=
  [ .host (hseg hostOps0 hostOps0_sub (W0 m ρ)),
    .region (reg m ρ 0 launch0 (W1 m ρ) (body_obligation0 (V1 m ρ)) (fun _ _ => ⟨rfl, rfl⟩) fun _ _ => ⟨rfl, rfl, rfl⟩),
    .region (reg m ρ 1 launch1 (W2 m ρ) (body_obligation1 (V2 m ρ)) (fun _ _ => ⟨rfl, rfl⟩) fun _ _ => ⟨rfl, rfl, rfl⟩),
    .region (reg m ρ 2 launch2 (W3 m ρ) (body_obligation2 (V3 m ρ)) (fun _ _ => ⟨rfl, rfl⟩) fun _ _ => ⟨rfl, rfl, rfl⟩),
    .host (hseg hostOps3 hostOps3_sub (W4 m ρ)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_chain c]; exact .rfl)
    (by simp only [segs, Pipeline.Seg.pipes_host, Pipeline.Seg.pipes_region, Pipeline.Seg.pipes_nil]; decide)
    (O₀ := 0) (hL := fun _ _ => rfl) (G := fun _ => BI.emp)
    (hu₀ := by
      rw [BI.bigSep_emp_const]
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iempintro)
    (T₀ := fun c => ts c (W0 m ρ c))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => sep_assoc'⟩)
    (hinit := by
      refine Pipeline.initEach L lv fun c => ?_
      erw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all _ _ (W5 m ρ c) s')
      iframe)
    (hQ := fun s h => h)

end Cert.Kernel.Hand

end
-- ==== Proof.KPrologue.lean ====
import proofs.«431030_j74440373174878_3_alg».proof.Proof.Gen.Kernel.Launch
import Idealize.ShloMosaic.Lib.StableHlo.Run

noncomputable section

namespace Cert.Kernel.Hand

open Idealize.ShloMosaic Idealize.ShloMosaic.TcCoe Idealize.SL.Sem Idealize.ShloMosaic.StableHlo
open Cert.Kernel Cert.Kernel.Gen

variable {F : FTy → Type} [FloatOps F] (W : Valuation τ sig (Elt F))

theorem prologue_of_ne (b : Ref sig .tc)
    (hb : b ∉ ([main_v0, main_c, main_v1, main_c_0, main_v2, main_v3, main_c_1, main_v4, main_v5, main_v6, main_v7, main_v8, main_v9, main_v10] : List (Ref sig .tc))) :
    StableHlo.after hostOps0 W (Proc.devRef .tc b) = W (Proc.devRef .tc b) := by
  refine StableHlo.after_of_writes_sub hostOps0 W ?_ hb
  simp only [List.Forall, StableHlo.nullary_writes, StableHlo.binary_writes, StableHlo.ternary_writes,
    StableHlo.reshape_writes, StableHlo.unaryIndexed_writes, Finset.singleton_subset_iff, List.mem_toFinset]
  refine ⟨?_, ?_, ?_, ?_, ?_, ?_, ?_, ?_, ?_, ?_, ?_, ?_, ?_, ?_⟩ <;> exact List.mem_map_of_mem (by decide)

theorem epilogue_of_ne (b : Ref sig .tc) (hb : b ∉ ([main_v14] : List (Ref sig .tc))) :
    StableHlo.after hostOps3 W (Proc.devRef .tc b) = W (Proc.devRef .tc b) := by
  refine StableHlo.after_of_writes_sub hostOps3 W ?_ hb
  simp only [List.Forall, StableHlo.unary_writes, Finset.singleton_subset_iff, List.mem_toFinset]
  exact List.mem_map_of_mem (by decide)

end Cert.Kernel.Hand

end
-- ==== Proof.KFrame.lean ====
import proofs.«431030_j74440373174878_3_alg».proof.Proof.KRun
import proofs.«431030_j74440373174878_3_alg».proof.Proof.KPrologue

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg)

/-- An input window's array holds its entry contents at every point, so after a call only an output window's array differs. -/
theorem withArrays_kept {cfg : Pipeline.Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (b : Ref sig .tc)
    (hb : ∀ w, Pipeline.arrRef cfg.spec w = b → (cfg.win w).isOut = false) :
    Pipeline.withArrays cfg.spec c V (fun w => d.arrAt w cfg.N) (Proc.devRef .tc b) = V (Proc.devRef .tc b) := by
  by_cases h : ∃ w, Pipeline.arrRef cfg.spec w = b
  · obtain ⟨w, rfl⟩ := h
    rw [Pipeline.withArrays_arr _ hinj, d.arrAt_in w (hb w rfl), hA]
  · exact Pipeline.withArrays_of_ne _ c _ _ b fun w e => h ⟨w, e⟩

/-- No host operation writes `b`, and no call has `b` as an output window's array. -/
def Kept (b : Ref sig .tc) : Prop :=
  b ∉ ([main_v0, main_c, main_v1, main_c_0, main_v2, main_v3, main_c_1, main_v4, main_v5, main_v6, main_v7, main_v8, main_v9, main_v10] : List (Ref sig .tc))
    ∧ b ∉ ([main_v14] : List (Ref sig .tc))
    ∧ ∀ (p : Fin 3) (w : Fin (cfgs p).W), Pipeline.arrRef (cfgs p).spec w = b → ((cfgs p).win w).isOut = false
instance : DecidablePred Kept := fun _ => inferInstanceAs (Decidable (_ ∧ _))

theorem W5_kept (c : Dev nD) (b : Ref sig .tc) (hb : Kept b) : W5 m ρ c (Proc.devRef .tc b) = m ((c : Thread nD τ).loc b) :=
  (epilogue_of_ne _ b hb.2.1).trans <|
  (withArrays_kept (dat2 (V3 m ρ) c) launch2.win.arr_inj (W3 m ρ c) (fun _ => rfl) b (hb.2.2 2)).trans <|
  (withArrays_kept (dat1 (V2 m ρ) c) launch1.win.arr_inj (W2 m ρ c) (fun _ => rfl) b (hb.2.2 1)).trans <|
  (withArrays_kept (dat0 (V1 m ρ) c) launch0.win.arr_inj (W1 m ρ c) (fun _ => rfl) b (hb.2.2 0)).trans <|
  prologue_of_ne _ b hb.1

abbrev Same (s : MemSt nD τ sig (Elt F)) (c : Dev nD) (b : Ref sig .tc) : Prop :=
  s.mem ((c.tc : Thread nD τ).loc b) = m ((c.tc : Thread nD τ).loc b)
abbrev ArgsKept (s : MemSt nD τ sig (Elt F)) (c : Dev nD) : Prop :=
  Same m s c main_arg0 ∧ Same m s c main_arg1 ∧ Same m s c main_arg2 ∧ Same m s c main_arg3 ∧ Same m s c main_arg4
  ∧ Same m s c main_arg5 ∧ Same m s c main_arg6 ∧ Same m s c main_arg7 ∧ Same m s c main_arg8 ∧ Same m s c main_arg9
  ∧ Same m s c main_arg10 ∧ Same m s c main_arg11 ∧ Same m s c main_arg12 ∧ Same m s c main_arg13

theorem args_kept {r : PUnit × MemSt nD τ sig (Elt F)}
    (h : ∀ c : Dev nD, ∀ b ∈ Pipeline.ucRefs τ sig, r.2.mem (((c : Thread nD τ)).1, b) = W5 m ρ c b) (c : Dev nD) : ArgsKept m r.2 c := by
  and_intros <;> exact (h c _ (mem_uc _ (by decide))).trans (W5_kept m ρ c _ (by decide))

theorem frame_all : θ_run defs (onTc (τ := τ) (main (F := F))) ⟨m, fun _ => 0, ρ⟩ (fun r => ∀ c : Dev nD, ArgsKept m r.2 c) :=
  (θ_run defs _ _).mono (fun r h c => args_kept m ρ h c) (run_all m ρ)

end Cert.Kernel.Hand

end
-- ==== Proof.KiRegion0.lean ====
import proofs.«431030_j74440373174878_3_alg».proof.Proof.Gen.KernelIdeal.Launch
import proofs.«431030_j74440373174878_3_alg».proof.Proof.Gen.KernelIdeal.Skeleton
import proofs.«431030_j74440373174878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r1x1024 : Rect S1x1024 := Rect.unit (s := S1x1024) ![0, 0] S1x1024.size inb_S1x1024_S1x1024_0_0
abbrev r10x1024 : Rect S10x1024 := Rect.unit (s := S10x1024) ![0, 0] S10x1024.size inb_S10x1024_S10x1024_0_0
abbrev r10x2048 : Rect S10x2048 := Rect.unit (s := S10x2048) ![0, 0] S10x2048.size inb_S10x2048_S10x2048_0_0
abbrev r1x10 : Rect S1x10 := Rect.unit (s := S1x10) ![0, 0] S1x10.size inb_S1x10_S1x10_0_0
abbrev r1024x2048 : Rect S1024x2048 := Rect.unit (s := S1024x2048) ![0, 0] S1024x2048.size inb_S1024x2048_S1024x2048_0_0
abbrev r3072x1024 : Rect S3072x1024 := Rect.unit (s := S3072x1024) ![0, 0] S3072x1024.size inb_S3072x1024_S3072x1024_0_0
abbrev r1x3072 : Rect S1x3072 := Rect.unit (s := S1x3072) ![0, 0] S1x3072.size inb_S1x3072_S1x3072_0_0

def out0_11 (x0 x1 : Vec F S1x1024 .f32) (x2 : Vec F S10x1024 .f32) (x3 : Vec F S10x2048 .f32) (x4 : Vec F S1x10 .f32) (x5 : Vec F S1024x2048 .f32) (x6 : Vec F S1x1024 .f32) (x7 : Vec F S3072x1024 .f32) (x8 : Vec F S1x3072 .f32) (x9 : Vec F S3072x1024 .f32) (x10 : Vec F S1x3072 .f32) : Vec F S1x1024 .f32 :=
  View.canon [⟨r1x1024, k0_pay1 (k0_pay3 (View.ld x1 r1x1024)) (k0_pay5 (View.ld x0 r1x1024) (View.ld x1 r1x1024) (View.ld x3 r10x2048) (View.ld x4 r1x10) (View.ld x2 r10x1024) (View.ld x5 r1024x2048) (View.ld x6 r1x1024)) (k0_pay6) (View.ld x7 r3072x1024) (View.ld x8 r1x3072) (View.ld x9 r3072x1024) (View.ld x10 r1x3072)⟩]

def out0_12 (x0 x1 : Vec F S1x1024 .f32) (x3 : Vec F S10x2048 .f32) (x4 : Vec F S1x10 .f32) : Vec F S1x10 .f32 :=
  View.canon [⟨r1x10, k0_pay4 (View.ld x0 r1x1024) (View.ld x1 r1x1024) (View.ld x3 r10x2048) (View.ld x4 r1x10)⟩]

set_option maxHeartbeats 4000000 in
theorem sound_kernel0 {c : Dev nD} {E : Set ℕ} {i : grid0.Coords} {arg1 arg2 arg7 arg12 : Memref sig .tc .vmem S1x1024 .f32} {arg3 : Memref sig .tc .vmem S10x1024 .f32}
    {arg4 : Memref sig .tc .vmem S10x2048 .f32} {arg5 arg13 : Memref sig .tc .vmem S1x10 .f32} {arg6 : Memref sig .tc .vmem S1024x2048 .f32}
    {arg8 arg10 : Memref sig .tc .vmem S3072x1024 .f32} {arg9 arg11 : Memref sig .tc .vmem S1x3072 .f32}
    {harg1 : arg1.IsWhole} {harg2 : arg2.IsWhole} {harg3 : arg3.IsWhole} {harg4 : arg4.IsWhole} {harg5 : arg5.IsWhole} {harg6 : arg6.IsWhole} {harg7 : arg7.IsWhole}
    {harg8 : arg8.IsWhole} {harg9 : arg9.IsWhole} {harg10 : arg10.IsWhole} {harg11 : arg11.IsWhole} {harg12 : arg12.IsWhole} {harg13 : arg13.IsWhole}
    {x0 x1 x6 : Vec F S1x1024 .f32} {x2 : Vec F S10x1024 .f32} {x3 : Vec F S10x2048 .f32} {x4 : Vec F S1x10 .f32} {x5 : Vec F S1024x2048 .f32}
    {x7 x9 : Vec F S3072x1024 .f32} {x8 x10 : Vec F S1x3072 .f32} (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10
            ∗ owns (c : Thread nD τ) arg12 fullShare (out0_11 x0 x1 x2 x3 x4 x5 x6 x7 x8 x9 x10) ∗ owns (c : Thread nD τ) arg13 fullShare (out0_12 x0 x1 x3 x4)) -∗ K ⟨⟩))
      ⊢ wp frame (wpE (defs₀ (F := F)) Variants.none c none) E (cc0_decoder_kernel i arg1 harg1 arg2 harg2 arg3 harg3 arg4 harg4 arg5 harg5 arg6 harg6 arg7 harg7 arg8 harg8 arg9 harg9 arg10 harg10 arg11 harg11 arg12 harg12 arg13 harg13) K := by
  simp only [cc0_decoder_kernel_eq_skeleton]; unfold cc0_decoder_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (View.cover_of_tiled _ S1x1024.size (by rfl))
  iexists _; isplitr
  swap; · iexact H12
  ipureintro
  exact View.read_writes_eq_canon _ _ _ (View.cover_of_tiled _ S1x10.size (by rfl))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t)
    | ⟨12, _⟩ => out0_12 (iblk0 V c 0 t) (iblk0 V c 1 t) (iblk0 V c 3 t) (iblk0 V c 4 t)
  Φ _ := Pipeline.ΦA spec0 c
  q _ := fullShare
  owed _ := 0

theorem before0 (c : Dev nD) (w : Fin cfg0.W) (hw : (cfg0.win w).isOut = false) (t : Fin cfg0.N) (d) :
    (dat0 V c).before w t d = (dat0 V c).after w t := by
  match w, hw with
  | ⟨0, _⟩, _ | ⟨1, _⟩, _ | ⟨2, _⟩, _ | ⟨3, _⟩, _ | ⟨4, _⟩, _ | ⟨5, _⟩, _ | ⟨6, _⟩, _ | ⟨7, _⟩, _ | ⟨8, _⟩, _ | ⟨9, _⟩, _ | ⟨10, _⟩, _ =>
    exact ((dat0 V c).before_in_eq_fetched _ rfl (fun _ => rfl) (fun _ _ _ => rfl) (fun _ => by unfold Dat.blockOf; dsimp only [dat0, iblk0]) t d).trans
      (by unfold Dat.fetched Dat.blockOf; dsimp only [dat0, iblk0]; rfl)
  | ⟨11, _⟩, h | ⟨12, _⟩, h => exact absurd h (by decide +revert)

theorem body_obligation0 (c : Dev nD) : BodyObligation (dat0 (F := F) V c) (defs₀ (F := F)) Variants.none () Set.univ := fun t => by
  show _ ⊢ wp _ _ _ (bodyAt0 t) _
  rw [bigSep_W0, bigSep_W0]
  simp (disch := exact rfl) only [before0]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply sound_kernel0 _
  iframe H0 H1 H2 H3 H4 H5 H6 H7 H8 H9 H10
  isplitl [H11]; · iexists _; iexact H11
  isplitl [H12]; · iexists _; iexact H12
  iintro H
  iframe
  iexact Ho

end Cert.KernelIdeal.Hand

end
-- ==== Proof.KiRegion1.lean ====
import proofs.«431030_j74440373174878_3_alg».proof.Proof.Gen.KernelIdeal.Launch
import proofs.«431030_j74440373174878_3_alg».proof.Proof.Gen.KernelIdeal.Skeleton
import proofs.«431030_j74440373174878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev hidRect1 : Rect S1x1024 := Rect.unit (s := S1x1024) ![0, 0] S1x1024.size inb_S1x1024_S1x1024_0_0
abbrev tileRect1 : Rect S3200x1024 := Rect.unit (s := S3200x1024) ![0, 0] S3200x1024.size inb_S3200x1024_S3200x1024_0_0
abbrev rowRect1 : Rect S1x3200 := Rect.unit (s := S1x3200) ![0, 0] S1x3200.size inb_S1x3200_S1x3200_0_0

def out1_3 (x0 : Vec F S1x1024 .f32) (x1 : Vec F S3200x1024 .f32) (x2 : Vec F S1x3200 .f32) : Vec F S1x3200 .f32 :=
  View.canon [⟨rowRect1, k1_pay1 (View.ld x0 hidRect1) (View.ld x1 tileRect1) (View.ld x2 rowRect1)⟩]

set_option maxHeartbeats 1000000 in
theorem sound_kernel1 {c : Dev nD} {E : Set ℕ} {i : grid1.Coords} {arg1 : Memref sig .tc .vmem S1x1024 .f32} {harg1 : arg1.IsWhole}
    {arg2 : Memref sig .tc .vmem S3200x1024 .f32} {harg2 : arg2.IsWhole} {arg3 arg4 : Memref sig .tc .vmem S1x3200 .f32} {harg3 : arg3.IsWhole}
    {harg4 : arg4.IsWhole} {x0 : Vec F S1x1024 .f32} {x1 : Vec F S3200x1024 .f32} {x2 : Vec F S1x3200 .f32} (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1_logits_kernel i arg1 harg1 arg2 harg2 arg3 harg3 arg4 harg4) K := by
  simp only [cc1_logits_kernel_eq_skeleton]; unfold cc1_logits_kernel_skel
  unfold owns
  iintro ⟨⟨%f0, %hf0, H0⟩, ⟨%f1, %hf1, H1⟩, ⟨%f2, %hf2, H2⟩, ⟨%d3, %f3, -, H3⟩, Hk⟩
  subst_vars
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (View.cover_of_tiled _ S1x3200.size (by rfl))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := rfl

theorem before1 (c : Dev nD) (w : Fin cfg1.W) (hw : (cfg1.win w).isOut = false) (t : Fin cfg1.N) (d) :
    (dat1 V c).before w t d = (dat1 V c).after w t := by
  match w, hw with
  | ⟨0, _⟩, _ | ⟨1, _⟩, _ | ⟨2, _⟩, _ =>
    exact ((dat1 V c).before_in_eq_fetched _ rfl (fun _ => rfl) (fun _ _ _ => rfl) (fun _ => by unfold Dat.blockOf; dsimp only [dat1, iblk1]) t d).trans
      (by unfold Dat.fetched Dat.blockOf; dsimp only [dat1, iblk1]; rfl)
  | ⟨3, _⟩, h => exact absurd h (by decide +revert)

theorem body_obligation1 (c : Dev nD) : BodyObligation (dat1 (F := F) V c) (defs₀ (F := F)) Variants.none () Set.univ := fun t => by
  show _ ⊢ wp _ _ _ (bodyAt1 t) _
  rw [bigSep_W1, bigSep_W1]
  simp (disch := exact rfl) only [before1]
  dsimp only [dat1]
  iintro ⟨HΦ, Ho, ⟨%d0, H0⟩, ⟨%d1, H1⟩, ⟨%d2, H2⟩, ⟨%d3, H3⟩⟩
  iapply sound_kernel1 _
  iframe H0 H1 H2
  isplitl [H3]; · iexists _; iexact H3
  iintro H
  iframe
  iexact Ho

end Cert.KernelIdeal.Hand

end
-- ==== Proof.KiRegion2.lean ====
import proofs.«431030_j74440373174878_3_alg».proof.Proof.Gen.KernelIdeal.Launch
import proofs.«431030_j74440373174878_3_alg».proof.Proof.Gen.KernelIdeal.Skeleton
import proofs.«431030_j74440373174878_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rowRect2 : Rect S1x128000 := Rect.unit (s := S1x128000) ![0, 0] S1x128000.size inb_S1x128000_S1x128000_0_0

def out2_1 (x0 : Vec F S1x128000 .f32) : Vec F S1x128000 .f32 :=
  View.canon [⟨rowRect2, k2_pay1 (View.ld x0 rowRect2)⟩]

set_option maxHeartbeats 1000000 in
theorem sound_kernel2 {c : Dev nD} {E : Set ℕ} {i : grid2.Coords} {arg1 : Memref sig .tc .vmem S1x128000 .f32} {harg1 : arg1.IsWhole}
    {arg2 : Memref sig .tc .vmem S1x128000 .f32} {harg2 : arg2.IsWhole} {x0 : Vec F S1x128000 .f32} (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out2_1 x0)) -∗ K ⟨⟩))
      ⊢ wp frame (wpE (defs₀ (F := F)) Variants.none c none) E (cc2_logsoftmax_kernel i arg1 harg1 arg2 harg2) K := by
  simp only [cc2_logsoftmax_kernel_eq_skeleton]; unfold cc2_logsoftmax_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (View.cover_of_tiled _ S1x128000.size (by rfl))

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => out2_1 (iblk2 V c 0 t)
  Φ _ := Pipeline.ΦA spec2 c
  q _ := fullShare
  owed _ := 0

theorem before2 (c : Dev nD) (w : Fin cfg2.W) (hw : (cfg2.win w).isOut = false) (t : Fin cfg2.N) (d) :
    (dat2 V c).before w t d = (dat2 V c).after w t := by
  match w, hw with
  | ⟨0, _⟩, _ => exact ((dat2 V c).before_in_eq_fetched _ rfl (fun _ => rfl) (fun _ _ _ => rfl) (fun _ => by unfold Dat.blockOf; dsimp only [dat2, iblk2]) t d).trans (by unfold Dat.fetched Dat.blockOf; dsimp only [dat2, iblk2]; rfl)
  | ⟨1, _⟩, h => exact absurd h (by decide +revert)

theorem body_obligation2 (c : Dev nD) : BodyObligation (dat2 (F := F) V c) (defs₀ (F := F)) Variants.none () Set.univ := fun t => by
  show _ ⊢ wp _ _ _ (bodyAt2 t) _
  rw [bigSep_W2, bigSep_W2]
  simp (disch := exact rfl) only [before2]
  dsimp only [dat2]
  iintro ⟨HΦ, Ho, ⟨%d0, H0⟩, ⟨%d1, H1⟩⟩
  iapply sound_kernel2 _
  iframe H0
  isplitl [H1]; · iexists _; iexact H1
  iintro ⟨H0, H1⟩
  iframe
  iexact Ho

end Cert.KernelIdeal.Hand

end
-- ==== Proof.KiRun.lean ====
import proofs.«431030_j74440373174878_3_alg».proof.Proof.KiRegion0
import proofs.«431030_j74440373174878_3_alg».proof.Proof.KiRegion1
import proofs.«431030_j74440373174878_3_alg».proof.Proof.KiRegion2

set_option maxRecDepth 16384

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c _ _ b hb
abbrev V2 : (c : Dev nD) → (b : Ref sig .tc) → Buf (Elt F) ((c : Thread nD τ).loc b) := fun c b => W2 m ρ c b
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N :=
  Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) :=
  Pipeline.withArrays_of_ne spec1 c _ _ b hb
abbrev V3 : (c : Dev nD) → (b : Ref sig .tc) → Buf (Elt F) ((c : Thread nD τ).loc b) := fun c b => W3 m ρ c b
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N :=
  Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) :=
  Pipeline.withArrays_of_ne spec2 c _ _ b hb
abbrev V4 : (c : Dev nD) → (b : Ref sig .tc) → Buf (Elt F) ((c : Thread nD τ).loc b) := fun c b => W4 m ρ c b
abbrev W5 : Dev nD → Valuation τ sig (Elt F) := fun c => StableHlo.after hostOps3 (W4 m ρ c)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev ts (c : Dev nD) (W : Valuation τ sig (Elt F)) : sProp 𝕄 := iprop(StableHlo.held (c : Thread nD τ) (Pipeline.ucRefs τ sig) W ∗ R c)
abbrev hseg (ops : List (HloOp τ sig (Elt F))) (hsub : ops.Forall fun op => op.bufs ⊆ StableHlo.tcRefs τ sig)
    (W : Dev nD → Valuation τ sig (Elt F)) (hfresh : ops.Forall fun op => op.fresh = ∅ := by simp only [List.Forall]; repeat' constructor) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Wx (p : Fin 3) (Wi : Dev nD → Valuation τ sig (Elt F)) (c : Dev nD) : Valuation τ sig (Elt F) :=
  Pipeline.withArrays (cfgs p).spec c (Wi c) fun w => (pdats m ρ p c).arrAt w (cfgs p).N

set_option backward.isDefEq.respectTransparency.types false in
/-- A call changes its windows' arrays and no other unscoped buffer. -/
def reg (p : Fin 3) (lf : Pipeline.LaunchFacts (nD := nD) (τ := τ) cfgs p) (Wi : Dev nD → Valuation τ sig (Elt F))
    (hb : ∀ c, BodyObligation (pdats m ρ p c) defs₀ 𝒱₀ () Set.univ)
    (hw : ∀ c w, (pdats m ρ p c).q w = fullShare ∧ (pdats m ρ p c).A w = Wi c (Proc.devRef .tc (Pipeline.arrRef (cfgs p).spec w)))
    (ht : ∀ c t, (pdats m ρ p c).owed t = 0 ∧ (pdats m ρ p c).recorded t = Set.univ ∧ (pdats m ρ p c).Φ t = Pipeline.ΦA (cfgs p).spec c) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p fun c t => (ht c t).1
  pre c := ts c (Wi c)
  post c := ts c (Wx m ρ p Wi c)
  X c := iprop(∃ r, prngReg c r)
  Y c := iprop(∃ r, prngReg c r)
  Z c := Pipeline.unscopedRest (cfgs p).spec c fun b => Wi c (Proc.devRef .tc b)
  hentry c := by
    have hsplit := Pipeline.arrays_of_unscopedBufs (p := p) (pcfgs (F := F)) adm (pdats m ρ) lf.win lf.arr_whole c
      ((pdats m ρ p c).share_full fun w => (hw c w).1) (fun b => Wi c (Proc.devRef .tc b)) fun w => (hw c w).2
    rw [Pipeline.unscopedBufs_held] at hsplit
    unfold Pipeline.prefHeld Pipeline.Dat.owesAt Pipeline.owesWithin Pipeline.Dat.bound
    rw [Finset.univ_eq_empty, BI.bigSep_empty, (ht c 0).1, (ht c 0).2.1]
    iintro ⟨⟨Hub, Hp, %W, HO⟩, -, -⟩
    ihave ⟨Ha, Hrest⟩ := hsplit $$ Hub
    imodintro
    iframe Ha Hp Hrest
    isplitr; · iempintro
    iexists W; iframe HO
    ipureintro; exact fun _ _ => Or.inl trivial
  hin c := by
    rw [(ht c 0).2.2]; unfold Pipeline.ΦA
    iintro ⟨Hp, -, Hr⟩
    iframe
  hout c := by
    rw [Pipeline.ownSems0_none, (ht c _).2.2]; unfold Pipeline.ΦA
    iintro ⟨Hr, Hp⟩
    iframe; iempintro
  hexit c := by
    have hjoin := Pipeline.unscopedBufs_of_arrays (p := p) (pcfgs (F := F)) adm
      lf.win lf.arr_whole c (pdats m ρ) ((pdats m ρ p c).share_full fun w => (hw c w).1)
      (fun b => Wi c (Proc.devRef .tc b)) (fun b => Wx m ρ p Wi c (Proc.devRef .tc b)) _
      (fun w => (Pipeline.withArrays_arr _ lf.win.arr_inj c _ _ w).symm)
      fun b hb => Pipeline.withArrays_of_ne _ c _ _ b fun w e => hb (Finset.mem_image.mpr ⟨w, Finset.mem_univ _, e⟩)
    rw [Pipeline.unscopedBufs_held] at hjoin
    unfold Pipeline.Dat.owesAt Pipeline.owesWithin
    rw [(ht c _).1]
    iintro ⟨Ha, ⟨%W, -, HO⟩, HY, Hrest⟩
    imodintro
    isplitl [Ha Hrest]
    · iapply hjoin; iframe
    isplitl [HY]; · iexact HY
    iexists W; iexact HO

abbrev segs : List (Pipeline.Seg (pcfgs (F := F)) adm (pdats m ρ) () defs₀ 𝒱₀ L lv) :=
  [ .host (hseg hostOps0 hostOps0_sub (W0 m ρ)),
    .region (reg m ρ 0 launch0 (W1 m ρ) (body_obligation0 (V1 m ρ)) (fun _ _ => ⟨rfl, rfl⟩) fun _ _ => ⟨rfl, rfl, rfl⟩),
    .region (reg m ρ 1 launch1 (W2 m ρ) (body_obligation1 (V2 m ρ)) (fun _ _ => ⟨rfl, rfl⟩) fun _ _ => ⟨rfl, rfl, rfl⟩),
    .region (reg m ρ 2 launch2 (W3 m ρ) (body_obligation2 (V3 m ρ)) (fun _ _ => ⟨rfl, rfl⟩) fun _ _ => ⟨rfl, rfl, rfl⟩),
    .host (hseg hostOps3 hostOps3_sub (W4 m ρ)) ]

set_option backward.isDefEq.respectTransparency.types false in
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_chain c]; exact .rfl)
    (by simp only [segs, Pipeline.Seg.pipes_host, Pipeline.Seg.pipes_region, Pipeline.Seg.pipes_nil]; decide)
    (O₀ := 0) (hL := fun _ _ => rfl) (G := fun _ => BI.emp)
    (hu₀ := by
      rw [BI.bigSep_emp_const]
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iempintro)
    (T₀ := fun c => ts c (W0 m ρ c))
    (Tₙ := fun c => iprop(StableHlo.held (c : Thread nD τ) (Pipeline.ucRefs τ sig) (W5 m ρ c) ∗ ∃ r, prngReg c r))
    (hch := ⟨fun _ => .rfl, fun _ => .rfl, fun _ => .rfl, fun _ => .rfl, fun _ => .rfl, fun _ => sep_assoc'⟩)
    (hinit := by
      refine Pipeline.initEach L lv fun c => ?_
      erw [Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (hfin := fun c s' => by
      iintro ⟨⟨Hh, -⟩, HSI⟩
      unfold StableHlo.held
      imodintro
      iapply (pointsTo_read_all _ _ (W5 m ρ c) s')
      iframe)
    (hQ := fun s h => h)

end Cert.KernelIdeal.Hand

end
-- ==== Proof.KiPrologue.lean ====
import proofs.«431030_j74440373174878_3_alg».proof.Proof.Gen.KernelIdeal.Launch
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

theorem prologue_of_ne (b : Ref sig .tc)
    (hb : b ∉ ([main_v0, main_c, main_v1, main_c_0, main_v2, main_v3, main_c_1, main_v4, main_v5, main_v6, main_v7, main_v8, main_v9, main_v10] : List (Ref sig .tc))) :
    StableHlo.after hostOps0 W (Proc.devRef .tc b) = W (Proc.devRef .tc b) := by
  refine StableHlo.after_of_writes_sub hostOps0 W ?_ hb
  simp only [List.Forall, StableHlo.nullary_writes, StableHlo.binary_writes, StableHlo.ternary_writes,
    StableHlo.reshape_writes, StableHlo.unaryIndexed_writes, Finset.singleton_subset_iff, List.mem_toFinset]
  refine ⟨?_, ?_, ?_, ?_, ?_, ?_, ?_, ?_, ?_, ?_, ?_, ?_, ?_, ?_⟩ <;> exact List.mem_map_of_mem (by decide)

theorem epilogue_of_ne (b : Ref sig .tc) (hb : b ∉ ([main_v14] : List (Ref sig .tc))) :
    StableHlo.after hostOps3 W (Proc.devRef .tc b) = W (Proc.devRef .tc b) := by
  refine StableHlo.after_of_writes_sub hostOps3 W ?_ hb
  simp only [List.Forall, StableHlo.unary_writes, Finset.singleton_subset_iff, List.mem_toFinset]
  exact List.mem_map_of_mem (by decide)

end Cert.KernelIdeal.Hand

end
-- ==== Proof.KiFrame.lean ====
import proofs.«431030_j74440373174878_3_alg».proof.Proof.KiRun
import proofs.«431030_j74440373174878_3_alg».proof.Proof.KiPrologue

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- An input window's array holds its entry contents at every point, so after a call only an output window's array differs. -/
theorem withArrays_kept {cfg : Pipeline.Cfg sig Λ₀} {c : Dev nD} (d : Dat τ (Elt F) Unit ℕ (UR sig nD τ) ℕ cfg c)
    (hinj : Function.Injective (Pipeline.arrRef cfg.spec)) (V : Valuation τ sig (Elt F))
    (hA : ∀ w, d.A w = V (Proc.devRef .tc (Pipeline.arrRef cfg.spec w))) (b : Ref sig .tc)
    (hb : ∀ w, Pipeline.arrRef cfg.spec w = b → (cfg.win w).isOut = false) :
    Pipeline.withArrays cfg.spec c V (fun w => d.arrAt w cfg.N) (Proc.devRef .tc b) = V (Proc.devRef .tc b) := by
  by_cases h : ∃ w, Pipeline.arrRef cfg.spec w = b
  · obtain ⟨w, rfl⟩ := h
    rw [Pipeline.withArrays_arr _ hinj, d.arrAt_in w (hb w rfl), hA]
  · exact Pipeline.withArrays_of_ne _ c _ _ b fun w e => h ⟨w, e⟩

/-- No host operation writes `b`, and no call has `b` as an output window's array. -/
def Kept (b : Ref sig .tc) : Prop :=
  b ∉ ([main_v0, main_c, main_v1, main_c_0, main_v2, main_v3, main_c_1, main_v4, main_v5, main_v6, main_v7, main_v8, main_v9, main_v10] : List (Ref sig .tc))
    ∧ b ∉ ([main_v14] : List (Ref sig .tc))
    ∧ ∀ (p : Fin 3) (w : Fin (cfgs p).W), Pipeline.arrRef (cfgs p).spec w = b → ((cfgs p).win w).isOut = false
instance : DecidablePred Kept := fun _ => inferInstanceAs (Decidable (_ ∧ _))

theorem W5_kept (c : Dev nD) (b : Ref sig .tc) (hb : Kept b) : W5 m ρ c (Proc.devRef .tc b) = m ((c : Thread nD τ).loc b) :=
  (epilogue_of_ne _ b hb.2.1).trans <|
  (withArrays_kept (dat2 (V3 m ρ) c) launch2.win.arr_inj (W3 m ρ c) (fun _ => rfl) b (hb.2.2 2)).trans <|
  (withArrays_kept (dat1 (V2 m ρ) c) launch1.win.arr_inj (W2 m ρ c) (fun _ => rfl) b (hb.2.2 1)).trans <|
  (withArrays_kept (dat0 (V1 m ρ) c) launch0.win.arr_inj (W1 m ρ c) (fun _ => rfl) b (hb.2.2 0)).trans <|
  prologue_of_ne _ b hb.1

abbrev Same (s : MemSt nD τ sig (Elt F)) (c : Dev nD) (b : Ref sig .tc) : Prop :=
  s.mem ((c.tc : Thread nD τ).loc b) = m ((c.tc : Thread nD τ).loc b)
abbrev ArgsKept (s : MemSt nD τ sig (Elt F)) (c : Dev nD) : Prop :=
  Same m s c main_arg0 ∧ Same m s c main_arg1 ∧ Same m s c main_arg2 ∧ Same m s c main_arg3 ∧ Same m s c main_arg4
  ∧ Same m s c main_arg5 ∧ Same m s c main_arg6 ∧ Same m s c main_arg7 ∧ Same m s c main_arg8 ∧ Same m s c main_arg9
  ∧ Same m s c main_arg10 ∧ Same m s c main_arg11 ∧ Same m s c main_arg12 ∧ Same m s c main_arg13

theorem args_kept {r : PUnit × MemSt nD τ sig (Elt F)}
    (h : ∀ c : Dev nD, ∀ b ∈ Pipeline.ucRefs τ sig, r.2.mem (((c : Thread nD τ)).1, b) = W5 m ρ c b) (c : Dev nD) : ArgsKept m r.2 c := by
  and_intros <;> exact (h c _ (mem_uc _ (by decide))).trans (W5_kept m ρ c _ (by decide))

theorem frame_all : θ_run defs (onTc (τ := τ) (main (F := F))) ⟨m, fun _ => 0, ρ⟩ (fun r => ∀ c : Dev nD, ArgsKept m r.2 c) :=
  (θ_run defs _ _).mono (fun r h c => args_kept m ρ h c) (run_all m ρ)

end Cert.KernelIdeal.Hand

end
-- ==== Proof.KiBlocks.lean ====
import proofs.«431030_j74440373174878_3_alg».proof.Proof.KiRegion0
import proofs.«431030_j74440373174878_3_alg».proof.Proof.KiRegion1
import proofs.«431030_j74440373174878_3_alg».proof.Proof.KiRegion2
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Window Grid)
open Cert.KernelIdeal Cert.KernelIdeal.Gen

variable {F : FTy → Type} [FloatOps F]
variable (V : (c : Dev nD) → (b : Ref sig .tc) → Buf (Elt F) ((c : Thread nD τ).loc b))

theorem offZero : (![0, 0] : Fin 2 → Nat) = fun _ => 0 := funext fun a => by fin_cases a <;> rfl

theorem read_blk_zero {G : Grid} (w : Window sig G) (t : Fin G.N) (h : ∀ a, w.index t a = 0) {α : Type} (A : w.shape.Idx → α)
    (j : (w.xblock (G.coords t)).Idx) (j' : w.shape.Idx) (hj : ∀ a, (j' a : ℕ) = j a) : A ((w.rect t).emb j) = A j' :=
  congrArg A (funext fun a => Fin.ext ((w.rect_emb_val_of_index_zero t a (h a) j).trans (hj a).symm))

theorem mem_blk_zero {G : Grid} (w : Window sig G) (t : Fin G.N) (h : ∀ a, w.index t a = 0)
    (hx : ∀ a, w.xsize (G.coords t) a = w.shape.size a) (i : w.shape.Idx) : i ∈ (w.rect t).set :=
  Rect.mem_set_unit.mpr fun a => by
    show w.index t a * w.size a ≤ i a ∧ (i a : ℕ) < w.index t a * w.size a + w.xsize (G.coords t) a
    rw [h a, hx a]; have := (i a).isLt; omega

theorem idx0 : ∀ (w : Fin cfg0.W) (t : Fin cfg0.N) (a : Fin (cfg0.win w).shape.rank), (cfg0.win w).index t a = 0 := by decide +kernel

theorem iblk0_0_eq (c : Dev nD) (t : Fin cfg0.N) : iblk0 V c 0 t = V c (Pipeline.arrRef spec0 0) :=
  funext fun j => read_blk_zero (cfg0.win 0) t (idx0 0 t) _ j j fun _ => rfl
theorem iblk0_1_eq (c : Dev nD) (t : Fin cfg0.N) : iblk0 V c 1 t = V c (Pipeline.arrRef spec0 1) :=
  funext fun j => read_blk_zero (cfg0.win 1) t (idx0 1 t) _ j j fun _ => rfl
theorem iblk0_2_eq (c : Dev nD) (t : Fin cfg0.N) : iblk0 V c 2 t = V c (Pipeline.arrRef spec0 2) :=
  funext fun j => read_blk_zero (cfg0.win 2) t (idx0 2 t) _ j j fun _ => rfl
theorem iblk0_3_eq (c : Dev nD) (t : Fin cfg0.N) : iblk0 V c 3 t = V c (Pipeline.arrRef spec0 3) :=
  funext fun j => read_blk_zero (cfg0.win 3) t (idx0 3 t) _ j j fun _ => rfl
theorem iblk0_4_eq (c : Dev nD) (t : Fin cfg0.N) : iblk0 V c 4 t = V c (Pipeline.arrRef spec0 4) :=
  funext fun j => read_blk_zero (cfg0.win 4) t (idx0 4 t) _ j j fun _ => rfl
theorem iblk0_5_eq (c : Dev nD) (t : Fin cfg0.N) : iblk0 V c 5 t = V c (Pipeline.arrRef spec0 5) :=
  funext fun j => read_blk_zero (cfg0.win 5) t (idx0 5 t) _ j j fun _ => rfl
theorem iblk0_6_eq (c : Dev nD) (t : Fin cfg0.N) : iblk0 V c 6 t = V c (Pipeline.arrRef spec0 6) :=
  funext fun j => read_blk_zero (cfg0.win 6) t (idx0 6 t) _ j j fun _ => rfl
theorem iblk0_7_eq (c : Dev nD) (t : Fin cfg0.N) : iblk0 V c 7 t = V c (Pipeline.arrRef spec0 7) :=
  funext fun j => read_blk_zero (cfg0.win 7) t (idx0 7 t) _ j j fun _ => rfl
theorem iblk0_8_eq (c : Dev nD) (t : Fin cfg0.N) : iblk0 V c 8 t = V c (Pipeline.arrRef spec0 8) :=
  funext fun j => read_blk_zero (cfg0.win 8) t (idx0 8 t) _ j j fun _ => rfl
theorem iblk0_9_eq (c : Dev nD) (t : Fin cfg0.N) : iblk0 V c 9 t = V c (Pipeline.arrRef spec0 9) :=
  funext fun j => read_blk_zero (cfg0.win 9) t (idx0 9 t) _ j j fun _ => rfl
theorem iblk0_10_eq (c : Dev nD) (t : Fin cfg0.N) : iblk0 V c 10 t = V c (Pipeline.arrRef spec0 10) :=
  funext fun j => read_blk_zero (cfg0.win 10) t (idx0 10 t) _ j j fun _ => rfl
theorem blk0_11 (A : Vec F S1x1024 .f32) (t : Fin cfg0.N) : ((cfg0.win 11).blk t).view.read (Elt F) A = A :=
  funext fun j => read_blk_zero (cfg0.win 11) t (idx0 11 t) A j j fun _ => rfl
theorem blk0_12 (A : Vec F S1x10 .f32) (t : Fin cfg0.N) : ((cfg0.win 12).blk t).view.read (Elt F) A = A :=
  funext fun j => read_blk_zero (cfg0.win 12) t (idx0 12 t) A j j fun _ => rfl
theorem cover0_11_arr (i : S1x1024.Idx) : ∃ t : Fin cfg0.N, (cfg0.win 11).flush t = true ∧ i ∈ ((cfg0.win 11).blk t).view.set :=
  ⟨t0_0, flush0_11 _, by
    show i ∈ ((View.whole main_v11_0).slice ((cfg0.win 11).rect t0_0)).set
    rw [View.set_slice_whole]; exact mem_blk_zero (cfg0.win 11) t0_0 (idx0 11 t0_0) (fun _ => rfl) i⟩
theorem cover0_12_arr (i : S1x10.Idx) : ∃ t : Fin cfg0.N, (cfg0.win 12).flush t = true ∧ i ∈ ((cfg0.win 12).blk t).view.set :=
  ⟨t0_0, flush0_12 _, by
    show i ∈ ((View.whole main_v11_1).slice ((cfg0.win 12).rect t0_0)).set
    rw [View.set_slice_whole]; exact mem_blk_zero (cfg0.win 12) t0_0 (idx0 12 t0_0) (fun _ => rfl) i⟩

theorem final0_11 (c : Dev nD) : (dat0 V c).arrAt 11 cfg0.N
    = k0_pay1 (k0_pay3 (V c main_v5)) (k0_pay5 (V c main_v4) (V c main_v5) (V c main_arg4) (V c main_v6) (V c main_arg2) (V c main_arg6) (V c main_v7)) (k0_pay6) (V c main_arg8) (V c main_v8) (V c main_arg10) (V c main_v9) := by
  refine (dat0 V c).arrAt_eq_of_cover 11 _ (fun t _ => ?_) cover0_11_arr
  show (cfg0.win 11).cut (grid0.coords t) ((dat0 V c).after 11 t) = _
  rw [blk0_11]
  dsimp only [dat0]
  unfold out0_11
  rw [View.canon_unit_zero offZero]
  simp only [View.ld_unit_zero (S := S1x1024) offZero, View.ld_unit_zero (S := S10x1024) offZero, View.ld_unit_zero (S := S10x2048) offZero, View.ld_unit_zero (S := S1x10) offZero, View.ld_unit_zero (S := S1024x2048) offZero, View.ld_unit_zero (S := S3072x1024) offZero, View.ld_unit_zero (S := S1x3072) offZero]
  rw [iblk0_0_eq, iblk0_1_eq, iblk0_2_eq, iblk0_3_eq, iblk0_4_eq, iblk0_5_eq, iblk0_6_eq, iblk0_7_eq, iblk0_8_eq, iblk0_9_eq, iblk0_10_eq]
  rfl

theorem final0_12 (c : Dev nD) : (dat0 V c).arrAt 12 cfg0.N = k0_pay4 (V c main_v4) (V c main_v5) (V c main_arg4) (V c main_v6) := by
  refine (dat0 V c).arrAt_eq_of_cover 12 _ (fun t _ => ?_) cover0_12_arr
  show (cfg0.win 12).cut (grid0.coords t) ((dat0 V c).after 12 t) = _
  rw [blk0_12]
  dsimp only [dat0]
  unfold out0_12
  rw [View.canon_unit_zero offZero]
  simp only [View.ld_unit_zero (S := S1x1024) offZero, View.ld_unit_zero (S := S10x2048) offZero, View.ld_unit_zero (S := S1x10) offZero]
  rw [iblk0_0_eq, iblk0_1_eq, iblk0_3_eq, iblk0_4_eq]
  rfl

theorem idx2 : ∀ (w : Fin cfg2.W) (t : Fin cfg2.N) (a : Fin (cfg2.win w).shape.rank), (cfg2.win w).index t a = 0 := by decide +kernel

theorem iblk2_0_eq (c : Dev nD) (t : Fin cfg2.N) : iblk2 V c 0 t = V c (Pipeline.arrRef spec2 0) :=
  funext fun j => read_blk_zero (cfg2.win 0) t (idx2 0 t) _ j j fun _ => rfl
theorem blk2_1 (A : Vec F S1x128000 .f32) (t : Fin cfg2.N) : ((cfg2.win 1).blk t).view.read (Elt F) A = A :=
  funext fun j => read_blk_zero (cfg2.win 1) t (idx2 1 t) A j j fun _ => rfl
theorem cover2_1_arr (i : S1x128000.Idx) : ∃ t : Fin cfg2.N, (cfg2.win 1).flush t = true ∧ i ∈ ((cfg2.win 1).blk t).view.set :=
  ⟨t2_0, flush2_1 _, by
    show i ∈ ((View.whole main_v13).slice ((cfg2.win 1).rect t2_0)).set
    rw [View.set_slice_whole]; exact mem_blk_zero (cfg2.win 1) t2_0 (idx2 1 t2_0) (fun _ => rfl) i⟩

theorem final2_1 (c : Dev nD) : (dat2 V c).arrAt 1 cfg2.N = k2_pay1 (V c main_v12) := by
  refine (dat2 V c).arrAt_eq_of_cover 1 _ (fun t _ => ?_) cover2_1_arr
  show (cfg2.win 1).cut (grid2.coords t) ((dat2 V c).after 1 t) = _
  rw [blk2_1]
  dsimp only [dat2]
  unfold out2_1
  rw [View.canon_unit_zero offZero]
  simp only [View.ld_unit_zero (S := S1x128000) offZero]
  rw [iblk2_0_eq]
  rfl

theorem pts1 (t : Fin cfg1.N) : t.val < 40 := lt_of_lt_of_eq t.isLt N_1

theorem idx1_0 : ∀ (t : Fin cfg1.N) (a : Fin (cfg1.win 0).shape.rank), (cfg1.win 0).index t a = 0 := by decide +kernel

theorem idx1 : ∀ t : Fin cfg1.N, win1_1.index t (0 : Fin 2) = t.val ∧ win1_1.index t (1 : Fin 2) = 0
    ∧ win1_2.index t (0 : Fin 2) = 0 ∧ win1_2.index t (1 : Fin 2) = t.val
    ∧ win1_3.index t (0 : Fin 2) = 0 ∧ win1_3.index t (1 : Fin 2) = t.val :=
  (by decide +kernel : ∀ t : Fin grid1.N, _)

theorem iblk1_0_eq (c : Dev nD) (t : Fin cfg1.N) : iblk1 V c 0 t = V c main_v11_0 :=
  funext fun j => read_blk_zero (cfg1.win 0) t (idx1_0 t) _ j j fun _ => rfl

theorem iblk1_1_apply (c : Dev nD) (t : Fin cfg1.N) (p : Fin 3200) (k : Fin 1024) :
    iblk1 V c 1 t (ix2 p k) = V c main_arg12 (ix2 (⟨3200 * t.val + p.val, by have := pts1 t; omega⟩ : Fin 128000) k) := by
  obtain ⟨e0, e1, -⟩ := idx1 t
  show V c main_arg12 (((cfg1.win 1).blk t).view.emb (ix2 p k)) = _
  congr 1; funext a; apply Fin.ext
  match a with
  | ⟨0, _⟩ => show win1_1.index t (0 : Fin 2) * 3200 + 1 * p.val = 3200 * t.val + p.val; omega
  | ⟨1, _⟩ => show win1_1.index t (1 : Fin 2) * 1024 + 1 * k.val = k.val; omega

theorem iblk1_2_apply (c : Dev nD) (t : Fin cfg1.N) (p : Fin 3200) :
    iblk1 V c 2 t (ix2 (0 : Fin 1) p) = V c main_v10 (ix2 (0 : Fin 1) (⟨3200 * t.val + p.val, by have := pts1 t; omega⟩ : Fin 128000)) := by
  obtain ⟨-, -, e0, e1, -⟩ := idx1 t
  show V c main_v10 (((cfg1.win 2).blk t).view.emb (ix2 (0 : Fin 1) p)) = _
  congr 1; funext a; apply Fin.ext
  match a with
  | ⟨0, _⟩ => show win1_2.index t (0 : Fin 2) * 1 + 1 * 0 = 0; omega
  | ⟨1, _⟩ => show win1_2.index t (1 : Fin 2) * 3200 + 1 * p.val = 3200 * t.val + p.val; omega

theorem emb1_3 (t : Fin cfg1.N) (q : Fin 3200) :
    ((cfg1.win 3).blk t).view.emb (ix2 (0 : Fin 1) q) = ix2 (0 : Fin 1) (⟨3200 * t.val + q.val, by have := pts1 t; omega⟩ : Fin 128000) := by
  obtain ⟨-, -, -, -, e0, e1⟩ := idx1 t
  funext a; apply Fin.ext
  match a with
  | ⟨0, _⟩ => show win1_3.index t (0 : Fin 2) * 1 + 1 * 0 = 0; omega
  | ⟨1, _⟩ => show win1_3.index t (1 : Fin 2) * 3200 + 1 * q.val = 3200 * t.val + q.val; omega

theorem flushed1_3_eq (c : Dev nD) (t : Fin cfg1.N) :
    (dat1 V c).flushed 3 t = k1_pay1 (iblk1 V c 0 t) (iblk1 V c 1 t) (iblk1 V c 2 t) := by
  show (cfg1.win 3).cut (grid1.coords t) ((dat1 V c).after 3 t) = _
  dsimp only [dat1]
  unfold out1_3
  rw [View.canon_unit_zero offZero]
  simp only [View.ld_unit_zero (S := S1x1024) offZero, View.ld_unit_zero (S := S3200x1024) offZero, View.ld_unit_zero (S := S1x3200) offZero]
  rfl

theorem cover1_3_arr (i : S1x128000.Idx) : ∃ t : Fin cfg1.N, (cfg1.win 3).flush t = true ∧ i ∈ ((cfg1.win 3).blk t).view.set := by
  have hi0 : (i 0).val < 1 := (i 0).isLt
  have hi1 : (i 1).val < 128000 := (i 1).isLt
  let t : Fin cfg1.N := ⟨(i 1).val / 3200, by rw [show cfg1.N = 40 from N_1]; omega⟩
  refine ⟨t, flush1_3 t, ?_⟩
  obtain ⟨-, -, -, -, e0, e1⟩ := idx1 t
  have ht : t.val = (i 1).val / 3200 := rfl
  show i ∈ ((View.whole main_v12).slice (win1_3.rect t)).set
  rw [View.set_slice_whole, Rect.mem_set_unit]
  intro a
  match a with
  | ⟨0, _⟩ => show win1_3.index t (0 : Fin 2) * 1 ≤ (i 0).val ∧ (i 0).val < win1_3.index t (0 : Fin 2) * 1 + 1; omega
  | ⟨1, _⟩ => show win1_3.index t (1 : Fin 2) * 3200 ≤ (i 1).val ∧ (i 1).val < win1_3.index t (1 : Fin 2) * 3200 + 3200; omega

end Cert.KernelIdeal.Hand

end
-- ==== Proof.KiHost.lean ====
import proofs.«431030_j74440373174878_3_alg».proof.Proof.Gen.KernelIdeal.Launch
import Idealize.ShloMosaic.Lib.StableHlo.Run

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F] (W : Valuation τ sig (Elt F))

def embRow (x0 : (⟨S1, .i32⟩ : BufTy).Contents (Elt F)) (x3 : (⟨S128000x1024, .f32⟩ : BufTy).Contents (Elt F)) :
    (⟨S1x1024, .f32⟩ : BufTy).Contents (Elt F) :=
  Host.dynamicSlice S1x1024 x3 (fun k => (((![select (cmpi .slt (shapeCast _ x0 shapeCasts_S1_S_) (constantI S_ 32 0#32)) (addi (shapeCast _ x0 shapeCasts_S1_S_) (constantI S_ 32 128000#32)) (shapeCast _ x0 shapeCasts_S1_S_), constantI S_ 32 0#32] : Fin 2 → (⟨S_, .i32⟩ : BufTy).Contents (Elt F))) k (Shape.Idx.first h_S_)).toInt) sliceFits_S128000x1024_S1x1024

theorem prologue_v4 : (StableHlo.after hostOps0 W (Proc.devRef .tc main_v4) : (⟨S1x1024, .f32⟩ : BufTy).Contents (Elt F))
    = embRow (W (Proc.devRef .tc main_arg0)) (W (Proc.devRef .tc main_arg3)) := by
  unfold embRow
  after_results
  congr 1
  funext k
  fin_cases k <;> (try simp only [Matrix.cons_val_zero', Matrix.cons_val_succ', Fin.zero_eta, Fin.mk_one, Matrix.cons_val_zero, Matrix.cons_val_one, Matrix.head_cons]) <;> (try after_results) <;> rfl
theorem prologue_v5 : (StableHlo.after hostOps0 W (Proc.devRef .tc main_v5) : (⟨S1x1024, .f32⟩ : BufTy).Contents (Elt F))
    = shapeCast _ (W (Proc.devRef .tc main_arg1)) shapeCasts_S1x1x1024_S1x1024 := by
  after_results
  rfl
theorem prologue_v6 : (StableHlo.after hostOps0 W (Proc.devRef .tc main_v6) : (⟨S1x10, .f32⟩ : BufTy).Contents (Elt F))
    = shapeCast _ (W (Proc.devRef .tc main_arg5)) shapeCasts_S10_S1x10 := by
  after_results
  rfl
theorem prologue_v7 : (StableHlo.after hostOps0 W (Proc.devRef .tc main_v7) : (⟨S1x1024, .f32⟩ : BufTy).Contents (Elt F))
    = shapeCast _ (W (Proc.devRef .tc main_arg7)) shapeCasts_S1024_S1x1024 := by
  after_results
  rfl
theorem prologue_v8 : (StableHlo.after hostOps0 W (Proc.devRef .tc main_v8) : (⟨S1x3072, .f32⟩ : BufTy).Contents (Elt F))
    = shapeCast _ (W (Proc.devRef .tc main_arg9)) shapeCasts_S3072_S1x3072 := by
  after_results
  rfl
theorem prologue_v9 : (StableHlo.after hostOps0 W (Proc.devRef .tc main_v9) : (⟨S1x3072, .f32⟩ : BufTy).Contents (Elt F))
    = shapeCast _ (W (Proc.devRef .tc main_arg11)) shapeCasts_S3072_S1x3072 := by
  after_results
  rfl
theorem prologue_v10 : (StableHlo.after hostOps0 W (Proc.devRef .tc main_v10) : (⟨S1x128000, .f32⟩ : BufTy).Contents (Elt F))
    = shapeCast _ (W (Proc.devRef .tc main_arg13)) shapeCasts_S128000_S1x128000 := by
  after_results
  rfl

theorem epilogue_v14 : (StableHlo.after hostOps3 W (Proc.devRef .tc main_v14) : (⟨S1x1x1024, .f32⟩ : BufTy).Contents (Elt F))
    = broadcastInDim S1x1x1024 ![1, 2] bcast_S1x1024_S1x1x1024_1_2 (W (Proc.devRef .tc main_v11_0)) := by
  after_results

end Cert.KernelIdeal.Hand

end
-- ==== Proof.RefReadP.lean ====
import proofs.«431030_j74440373174878_3_alg».proof.Proof.Gen.ReferenceIdeal
import Idealize.ShloMosaic.Lib.StableHlo.Run
import Idealize.ShloMosaic.Lib.Pipeline.Value
import Idealize.ShloMosaic.Lib.ValueIdx
import Idealize.ShloMosaic.PureOps.Ideal.Laws

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]
variable (x0 : (⟨S1, .i32⟩ : BufTy).Contents (Elt F))
  (x1 : (⟨S1x1x1024, .f32⟩ : BufTy).Contents (Elt F))
  (x2 : (⟨S10x1024, .f32⟩ : BufTy).Contents (Elt F))
  (x3 : (⟨S128000x1024, .f32⟩ : BufTy).Contents (Elt F))
  (x4 : (⟨S10x2048, .f32⟩ : BufTy).Contents (Elt F))
  (x5 : (⟨S10, .f32⟩ : BufTy).Contents (Elt F))
  (x6 : (⟨S1024x2048, .f32⟩ : BufTy).Contents (Elt F))
  (x7 : (⟨S1024, .f32⟩ : BufTy).Contents (Elt F))
  (x8 : (⟨S3072x1024, .f32⟩ : BufTy).Contents (Elt F))
  (x9 : (⟨S3072, .f32⟩ : BufTy).Contents (Elt F))
  (x10 : (⟨S3072x1024, .f32⟩ : BufTy).Contents (Elt F))
  (x11 : (⟨S3072, .f32⟩ : BufTy).Contents (Elt F))
  (x12 : (⟨S128000x1024, .f32⟩ : BufTy).Contents (Elt F))
  (x13 : (⟨S128000, .f32⟩ : BufTy).Contents (Elt F))

def val_main_v0 : (⟨S_, .i32⟩ : BufTy).Contents (Elt F) :=
  shapeCast _ (x0) shapeCasts_S1_S_

def val_main_c : (⟨S_, .i32⟩ : BufTy).Contents (Elt F) :=
  constantI S_ 32 0#32
def val_main_v1 : (⟨S_, .i1⟩ : BufTy).Contents (Elt F) :=
  cmpi .slt (val_main_v0 (F := F) x0) (val_main_c (F := F))
def val_main_c_0 : (⟨S_, .i32⟩ : BufTy).Contents (Elt F) :=
  constantI S_ 32 128000#32
def val_main_v2 : (⟨S_, .i32⟩ : BufTy).Contents (Elt F) :=
  addi (val_main_v0 (F := F) x0) (val_main_c_0 (F := F))
def val_main_v3 : (⟨S_, .i32⟩ : BufTy).Contents (Elt F) :=
  select (val_main_v1 (F := F) x0) (val_main_v2 (F := F) x0) (val_main_v0 (F := F) x0)
def val_main_c_1 : (⟨S_, .i32⟩ : BufTy).Contents (Elt F) :=
  constantI S_ 32 0#32
def val_main_c_2 : (⟨S_, .i32⟩ : BufTy).Contents (Elt F) :=
  constantI S_ 32 0#32
def val_main_v4 : (⟨S_, .i1⟩ : BufTy).Contents (Elt F) :=
  cmpi .slt (val_main_c_1 (F := F)) (val_main_c_2 (F := F))
def val_main_c_3 : (⟨S_, .i32⟩ : BufTy).Contents (Elt F) :=
  constantI S_ 32 0#32
def val_main_c_4 : (⟨S_, .i32⟩ : BufTy).Contents (Elt F) :=
  constantI S_ 32 1024#32
def val_main_v5 : (⟨S_, .i32⟩ : BufTy).Contents (Elt F) :=
  addi (val_main_c_3 (F := F)) (val_main_c_4 (F := F))
def val_main_c_5 : (⟨S_, .i32⟩ : BufTy).Contents (Elt F) :=
  constantI S_ 32 0#32
def val_main_v6 : (⟨S_, .i32⟩ : BufTy).Contents (Elt F) :=
  select (val_main_v4 (F := F)) (val_main_v5 (F := F)) (val_main_c_5 (F := F))
def val_main_v7 : (⟨S1x1024, .f32⟩ : BufTy).Contents (Elt F) :=
  Host.dynamicSlice S1x1024 (x3) (fun k => (((![val_main_v3 (F := F) x0, val_main_v6 (F := F)] : Fin 2 → (⟨S_, .i32⟩ : BufTy).Contents (Elt F))) k (Shape.Idx.first h_S_)).toInt) sliceFits_S128000x1024_S1x1024

def val_main_v8 : (⟨S1024, .f32⟩ : BufTy).Contents (Elt F) :=
  shapeCast _ (val_main_v7 (F := F) x0 x3) shapeCasts_S1x1024_S1024
def val_main_v9 : (⟨S1x1024, .f32⟩ : BufTy).Contents (Elt F) :=
  broadcastInDim S1x1024 ![1] bcast_S1024_S1x1024_1 (val_main_v8 (F := F) x0 x3)
def val_main_v10 : (⟨S1x1024, .f32⟩ : BufTy).Contents (Elt F) :=
  shapeCast _ (x1) shapeCasts_S1x1x1024_S1x1024
def val_main_v11 : (⟨S1x2048, .f32⟩ : BufTy).Contents (Elt F) :=
  concatenate S1x2048 1 [⟨S1x1024, (val_main_v9 (F := F) x0 x3)⟩, ⟨S1x1024, (val_main_v10 (F := F) x1)⟩] concatenates_S1x1024_S1x1024_S1x2048_d1

def val_main_v12 : (⟨S2048x10, .f32⟩ : BufTy).Contents (Elt F) :=
  transpose S2048x10 [1, 0] (x4) transposes_S10x2048_S2048x10_1_0
def val_main_v13 : (⟨S1x10, .f32⟩ : BufTy).Contents (Elt F) :=
  Host.dotGeneral dot_S1x2048_S2048x10_S1x10_1_0_0_1_n_n none (val_main_v11 (F := F) x0 x1 x3) (val_main_v12 (F := F) x4)
def val_main_v14 : (⟨S1x10, .f32⟩ : BufTy).Contents (Elt F) :=
  broadcastInDim S1x10 ![1] bcast_S10_S1x10_1 (x5)
def val_main_v15 : (⟨S1x10, .f32⟩ : BufTy).Contents (Elt F) :=
  addf (val_main_v13 (F := F) x0 x1 x3 x4) (val_main_v14 (F := F) x5)
def val_main_cst : (⟨S_, .f32⟩ : BufTy).Contents (Elt F) :=
  constant S_ .f32 0xFF800000#32
def val_main_v16 : (⟨S1, .f32⟩ : BufTy).Contents (Elt F) :=
  Host.reduce FloatOps.maximumf (val_main_v15 (F := F) x0 x1 x3 x4 x5) (val_main_cst (F := F)) reducesTo_S1x10_S1_d1 h_S_

def val_main_cst_6 : (⟨S_, .f32⟩ : BufTy).Contents (Elt F) :=
  constant S_ .f32 0xFF800000#32
def val_main_v17 : (⟨S1, .f32⟩ : BufTy).Contents (Elt F) :=
  broadcastInDim S1 ![] bcast_S_S1 (val_main_cst_6 (F := F))
def val_main_v18 : (⟨S1, .f32⟩ : BufTy).Contents (Elt F) :=
  maximumf (val_main_v17 (F := F)) (val_main_v16 (F := F) x0 x1 x3 x4 x5)
def val_main_v19 : (⟨S1x1, .f32⟩ : BufTy).Contents (Elt F) :=
  broadcastInDim S1x1 ![0] bcast_S1_S1x1_0 (val_main_v18 (F := F) x0 x1 x3 x4 x5)
def val_main_v20 : (⟨S1x10, .f32⟩ : BufTy).Contents (Elt F) :=
  broadcastInDim S1x10 ![0, 1] bcast_S1x1_S1x10_0_1 (val_main_v19 (F := F) x0 x1 x3 x4 x5)
def val_main_v21 : (⟨S1x10, .f32⟩ : BufTy).Contents (Elt F) :=
  subf (val_main_v15 (F := F) x0 x1 x3 x4 x5) (val_main_v20 (F := F) x0 x1 x3 x4 x5)
def val_main_v22 : (⟨S1x10, .f32⟩ : BufTy).Contents (Elt F) :=
  Host.exp (val_main_v21 (F := F) x0 x1 x3 x4 x5)
def val_main_cst_7 : (⟨S_, .f32⟩ : BufTy).Contents (Elt F) :=
  constant S_ .f32 0x00000000#32
def val_main_v23 : (⟨S1, .f32⟩ : BufTy).Contents (Elt F) :=
  Host.reduceAdd (val_main_v22 (F := F) x0 x1 x3 x4 x5) (val_main_cst_7 (F := F)) reducesTo_S1x10_S1_d1 h_S_
def val_main_v24 : (⟨S1x1, .f32⟩ : BufTy).Contents (Elt F) :=
  broadcastInDim S1x1 ![0] bcast_S1_S1x1_0 (val_main_v23 (F := F) x0 x1 x3 x4 x5)
def val_main_v25 : (⟨S1x10, .f32⟩ : BufTy).Contents (Elt F) :=
  broadcastInDim S1x10 ![0, 1] bcast_S1x1_S1x10_0_1 (val_main_v24 (F := F) x0 x1 x3 x4 x5)
def val_main_v26 : (⟨S1x10, .f32⟩ : BufTy).Contents (Elt F) :=
  Host.divf (val_main_v22 (F := F) x0 x1 x3 x4 x5) (val_main_v25 (F := F) x0 x1 x3 x4 x5)
def val_main_v27 : (⟨S1x1024, .f32⟩ : BufTy).Contents (Elt F) :=
  Host.dotGeneral dot_S1x10_S10x1024_S1x1024_1_0_0_1_n_n none (val_main_v26 (F := F) x0 x1 x3 x4 x5) (x2)
def val_main_v28 : (⟨S1x2048, .f32⟩ : BufTy).Contents (Elt F) :=
  concatenate S1x2048 1 [⟨S1x1024, (val_main_v9 (F := F) x0 x3)⟩, ⟨S1x1024, (val_main_v27 (F := F) x0 x1 x2 x3 x4 x5)⟩] concatenates_S1x1024_S1x1024_S1x2048_d1

def val_main_v29 : (⟨S2048x1024, .f32⟩ : BufTy).Contents (Elt F) :=
  transpose S2048x1024 [1, 0] (x6) transposes_S1024x2048_S2048x1024_1_0
def val_main_v30 : (⟨S1x1024, .f32⟩ : BufTy).Contents (Elt F) :=
  Host.dotGeneral dot_S1x2048_S2048x1024_S1x1024_1_0_0_1_n_n none (val_main_v28 (F := F) x0 x1 x2 x3 x4 x5) (val_main_v29 (F := F) x6)
def val_main_v31 : (⟨S1x1024, .f32⟩ : BufTy).Contents (Elt F) :=
  broadcastInDim S1x1024 ![1] bcast_S1024_S1x1024_1 (x7)
def val_main_v32 : (⟨S1x1024, .f32⟩ : BufTy).Contents (Elt F) :=
  addf (val_main_v30 (F := F) x0 x1 x2 x3 x4 x5 x6) (val_main_v31 (F := F) x7)
def val_main_call0_cst : (⟨S_, .f32⟩ : BufTy).Contents (Elt F) :=
  constant S_ .f32 0x00000000#32
def val_main_call0_v0 : (⟨S1x1024, .f32⟩ : BufTy).Contents (Elt F) :=
  broadcastInDim S1x1024 ![] bcast_S_S1x1024 (val_main_call0_cst (F := F))
def val_main_v33 : (⟨S1x1024, .f32⟩ : BufTy).Contents (Elt F) :=
  maximumf (val_main_v32 (F := F) x0 x1 x2 x3 x4 x5 x6 x7) (val_main_call0_v0 (F := F))
def val_main_v34 : (⟨S1024x3072, .f32⟩ : BufTy).Contents (Elt F) :=
  transpose S1024x3072 [1, 0] (x8) transposes_S3072x1024_S1024x3072_1_0
def val_main_v35 : (⟨S1x3072, .f32⟩ : BufTy).Contents (Elt F) :=
  Host.dotGeneral dot_S1x1024_S1024x3072_S1x3072_1_0_0_1_n_n none (val_main_v33 (F := F) x0 x1 x2 x3 x4 x5 x6 x7) (val_main_v34 (F := F) x8)
def val_main_v36 : (⟨S1x3072, .f32⟩ : BufTy).Contents (Elt F) :=
  broadcastInDim S1x3072 ![1] bcast_S3072_S1x3072_1 (x9)
def val_main_v37 : (⟨S1x3072, .f32⟩ : BufTy).Contents (Elt F) :=
  addf (val_main_v35 (F := F) x0 x1 x2 x3 x4 x5 x6 x7 x8) (val_main_v36 (F := F) x9)
def val_main_v38 : (⟨S1024x3072, .f32⟩ : BufTy).Contents (Elt F) :=
  transpose S1024x3072 [1, 0] (x10) transposes_S3072x1024_S1024x3072_1_0
def val_main_v39 : (⟨S1x3072, .f32⟩ : BufTy).Contents (Elt F) :=
  Host.dotGeneral dot_S1x1024_S1024x3072_S1x3072_1_0_0_1_n_n none (val_main_v10 (F := F) x1) (val_main_v38 (F := F) x10)
def val_main_v40 : (⟨S1x3072, .f32⟩ : BufTy).Contents (Elt F) :=
  broadcastInDim S1x3072 ![1] bcast_S3072_S1x3072_1 (x11)
def val_main_v41 : (⟨S1x3072, .f32⟩ : BufTy).Contents (Elt F) :=
  addf (val_main_v39 (F := F) x1 x10) (val_main_v40 (F := F) x11)
def val_main_v42 : (⟨S1x1024, .f32⟩ : BufTy).Contents (Elt F) :=
  extractStridedSlice S1x1024 ![0, 0] (val_main_v37 (F := F) x0 x1 x2 x3 x4 x5 x6 x7 x8 x9) slices_S1x3072_S1x1024_0_0
def val_main_v43 : (⟨S1x1024, .f32⟩ : BufTy).Contents (Elt F) :=
  extractStridedSlice S1x1024 ![0, 0] (val_main_v41 (F := F) x1 x10 x11) slices_S1x3072_S1x1024_0_0
def val_main_v44 : (⟨S1x1024, .f32⟩ : BufTy).Contents (Elt F) :=
  addf (val_main_v42 (F := F) x0 x1 x2 x3 x4 x5 x6 x7 x8 x9) (val_main_v43 (F := F) x1 x10 x11)
def val_main_v45 : (⟨S1x1024, .f32⟩ : BufTy).Contents (Elt F) :=
  Host.negf (val_main_v44 (F := F) x0 x1 x2 x3 x4 x5 x6 x7 x8 x9 x10 x11)
def val_main_v46 : (⟨S1x1024, .f32⟩ : BufTy).Contents (Elt F) :=
  Host.exp (val_main_v45 (F := F) x0 x1 x2 x3 x4 x5 x6 x7 x8 x9 x10 x11)
def val_main_cst_8 : (⟨S_, .f32⟩ : BufTy).Contents (Elt F) :=
  constant S_ .f32 0x3F800000#32
def val_main_v47 : (⟨S1x1024, .f32⟩ : BufTy).Contents (Elt F) :=
  broadcastInDim S1x1024 ![] bcast_S_S1x1024 (val_main_cst_8 (F := F))
def val_main_v48 : (⟨S1x1024, .f32⟩ : BufTy).Contents (Elt F) :=
  addf (val_main_v47 (F := F)) (val_main_v46 (F := F) x0 x1 x2 x3 x4 x5 x6 x7 x8 x9 x10 x11)
def val_main_cst_9 : (⟨S_, .f32⟩ : BufTy).Contents (Elt F) :=
  constant S_ .f32 0x3F800000#32
def val_main_v49 : (⟨S1x1024, .f32⟩ : BufTy).Contents (Elt F) :=
  broadcastInDim S1x1024 ![] bcast_S_S1x1024 (val_main_cst_9 (F := F))
def val_main_v50 : (⟨S1x1024, .f32⟩ : BufTy).Contents (Elt F) :=
  Host.divf (val_main_v49 (F := F)) (val_main_v48 (F := F) x0 x1 x2 x3 x4 x5 x6 x7 x8 x9 x10 x11)
def val_main_v51 : (⟨S1x1024, .f32⟩ : BufTy).Contents (Elt F) :=
  extractStridedSlice S1x1024 ![0, 1024] (val_main_v37 (F := F) x0 x1 x2 x3 x4 x5 x6 x7 x8 x9) slices_S1x3072_S1x1024_0_1024
def val_main_v52 : (⟨S1x1024, .f32⟩ : BufTy).Contents (Elt F) :=
  extractStridedSlice S1x1024 ![0, 1024] (val_main_v41 (F := F) x1 x10 x11) slices_S1x3072_S1x1024_0_1024
def val_main_v53 : (⟨S1x1024, .f32⟩ : BufTy).Contents (Elt F) :=
  addf (val_main_v51 (F := F) x0 x1 x2 x3 x4 x5 x6 x7 x8 x9) (val_main_v52 (F := F) x1 x10 x11)
def val_main_v54 : (⟨S1x1024, .f32⟩ : BufTy).Contents (Elt F) :=
  Host.negf (val_main_v53 (F := F) x0 x1 x2 x3 x4 x5 x6 x7 x8 x9 x10 x11)
def val_main_v55 : (⟨S1x1024, .f32⟩ : BufTy).Contents (Elt F) :=
  Host.exp (val_main_v54 (F := F) x0 x1 x2 x3 x4 x5 x6 x7 x8 x9 x10 x11)
def val_main_cst_10 : (⟨S_, .f32⟩ : BufTy).Contents (Elt F) :=
  constant S_ .f32 0x3F800000#32
def val_main_v56 : (⟨S1x1024, .f32⟩ : BufTy).Contents (Elt F) :=
  broadcastInDim S1x1024 ![] bcast_S_S1x1024 (val_main_cst_10 (F := F))
def val_main_v57 : (⟨S1x1024, .f32⟩ : BufTy).Contents (Elt F) :=
  addf (val_main_v56 (F := F)) (val_main_v55 (F := F) x0 x1 x2 x3 x4 x5 x6 x7 x8 x9 x10 x11)
def val_main_cst_11 : (⟨S_, .f32⟩ : BufTy).Contents (Elt F) :=
  constant S_ .f32 0x3F800000#32
def val_main_v58 : (⟨S1x1024, .f32⟩ : BufTy).Contents (Elt F) :=
  broadcastInDim S1x1024 ![] bcast_S_S1x1024 (val_main_cst_11 (F := F))
def val_main_v59 : (⟨S1x1024, .f32⟩ : BufTy).Contents (Elt F) :=
  Host.divf (val_main_v58 (F := F)) (val_main_v57 (F := F) x0 x1 x2 x3 x4 x5 x6 x7 x8 x9 x10 x11)
def val_main_v60 : (⟨S1x1024, .f32⟩ : BufTy).Contents (Elt F) :=
  extractStridedSlice S1x1024 ![0, 2048] (val_main_v37 (F := F) x0 x1 x2 x3 x4 x5 x6 x7 x8 x9) slices_S1x3072_S1x1024_0_2048
def val_main_v61 : (⟨S1x1024, .f32⟩ : BufTy).Contents (Elt F) :=
  extractStridedSlice S1x1024 ![0, 2048] (val_main_v41 (F := F) x1 x10 x11) slices_S1x3072_S1x1024_0_2048
def val_main_v62 : (⟨S1x1024, .f32⟩ : BufTy).Contents (Elt F) :=
  mulf (val_main_v50 (F := F) x0 x1 x2 x3 x4 x5 x6 x7 x8 x9 x10 x11) (val_main_v61 (F := F) x1 x10 x11)
def val_main_v63 : (⟨S1x1024, .f32⟩ : BufTy).Contents (Elt F) :=
  addf (val_main_v60 (F := F) x0 x1 x2 x3 x4 x5 x6 x7 x8 x9) (val_main_v62 (F := F) x0 x1 x2 x3 x4 x5 x6 x7 x8 x9 x10 x11)
def val_main_v64 : (⟨S1x1024, .f32⟩ : BufTy).Contents (Elt F) :=
  Host.tanh (val_main_v63 (F := F) x0 x1 x2 x3 x4 x5 x6 x7 x8 x9 x10 x11)
def val_main_cst_12 : (⟨S_, .f32⟩ : BufTy).Contents (Elt F) :=
  constant S_ .f32 0x3F800000#32
def val_main_v65 : (⟨S1x1024, .f32⟩ : BufTy).Contents (Elt F) :=
  broadcastInDim S1x1024 ![] bcast_S_S1x1024 (val_main_cst_12 (F := F))
def val_main_v66 : (⟨S1x1024, .f32⟩ : BufTy).Contents (Elt F) :=
  subf (val_main_v65 (F := F)) (val_main_v59 (F := F) x0 x1 x2 x3 x4 x5 x6 x7 x8 x9 x10 x11)
def val_main_v67 : (⟨S1x1024, .f32⟩ : BufTy).Contents (Elt F) :=
  mulf (val_main_v66 (F := F) x0 x1 x2 x3 x4 x5 x6 x7 x8 x9 x10 x11) (val_main_v64 (F := F) x0 x1 x2 x3 x4 x5 x6 x7 x8 x9 x10 x11)
def val_main_v68 : (⟨S1x1024, .f32⟩ : BufTy).Contents (Elt F) :=
  mulf (val_main_v59 (F := F) x0 x1 x2 x3 x4 x5 x6 x7 x8 x9 x10 x11) (val_main_v10 (F := F) x1)
def val_main_v69 : (⟨S1x1024, .f32⟩ : BufTy).Contents (Elt F) :=
  addf (val_main_v67 (F := F) x0 x1 x2 x3 x4 x5 x6 x7 x8 x9 x10 x11) (val_main_v68 (F := F) x0 x1 x2 x3 x4 x5 x6 x7 x8 x9 x10 x11)
def val_main_v70 : (⟨S1024x128000, .f32⟩ : BufTy).Contents (Elt F) :=
  transpose S1024x128000 [1, 0] (x12) transposes_S128000x1024_S1024x128000_1_0
def val_main_v71 : (⟨S1x128000, .f32⟩ : BufTy).Contents (Elt F) :=
  Host.dotGeneral dot_S1x1024_S1024x128000_S1x128000_1_0_0_1_n_n none (val_main_v69 (F := F) x0 x1 x2 x3 x4 x5 x6 x7 x8 x9 x10 x11) (val_main_v70 (F := F) x12)
def val_main_v72 : (⟨S1x128000, .f32⟩ : BufTy).Contents (Elt F) :=
  broadcastInDim S1x128000 ![1] bcast_S128000_S1x128000_1 (x13)
def val_main_v73 : (⟨S1x128000, .f32⟩ : BufTy).Contents (Elt F) :=
  addf (val_main_v71 (F := F) x0 x1 x2 x3 x4 x5 x6 x7 x8 x9 x10 x11 x12) (val_main_v72 (F := F) x13)
def val_main_call1_cst : (⟨S_, .f32⟩ : BufTy).Contents (Elt F) :=
  constant S_ .f32 0xFF800000#32
def val_main_call1_v0 : (⟨S1, .f32⟩ : BufTy).Contents (Elt F) :=
  Host.reduce FloatOps.maximumf (val_main_v73 (F := F) x0 x1 x2 x3 x4 x5 x6 x7 x8 x9 x10 x11 x12 x13) (val_main_call1_cst (F := F)) reducesTo_S1x128000_S1_d1 h_S_

def val_main_call1_cst_0 : (⟨S_, .f32⟩ : BufTy).Contents (Elt F) :=
  constant S_ .f32 0xFF800000#32
def val_main_call1_v1 : (⟨S1, .f32⟩ : BufTy).Contents (Elt F) :=
  broadcastInDim S1 ![] bcast_S_S1 (val_main_call1_cst_0 (F := F))
def val_main_call1_v2 : (⟨S1, .f32⟩ : BufTy).Contents (Elt F) :=
  maximumf (val_main_call1_v1 (F := F)) (val_main_call1_v0 (F := F) x0 x1 x2 x3 x4 x5 x6 x7 x8 x9 x10 x11 x12 x13)
def val_main_call1_v3 : (⟨S1x1, .f32⟩ : BufTy).Contents (Elt F) :=
  broadcastInDim S1x1 ![0] bcast_S1_S1x1_0 (val_main_call1_v2 (F := F) x0 x1 x2 x3 x4 x5 x6 x7 x8 x9 x10 x11 x12 x13)
def val_main_call1_v4 : (⟨S1x128000, .f32⟩ : BufTy).Contents (Elt F) :=
  broadcastInDim S1x128000 ![0, 1] bcast_S1x1_S1x128000_0_1 (val_main_call1_v3 (F := F) x0 x1 x2 x3 x4 x5 x6 x7 x8 x9 x10 x11 x12 x13)
def val_main_call1_v5 : (⟨S1x128000, .f32⟩ : BufTy).Contents (Elt F) :=
  subf (val_main_v73 (F := F) x0 x1 x2 x3 x4 x5 x6 x7 x8 x9 x10 x11 x12 x13) (val_main_call1_v4 (F := F) x0 x1 x2 x3 x4 x5 x6 x7 x8 x9 x10 x11 x12 x13)
def val_main_call1_v6 : (⟨S1x128000, .f32⟩ : BufTy).Contents (Elt F) :=
  Host.exp (val_main_call1_v5 (F := F) x0 x1 x2 x3 x4 x5 x6 x7 x8 x9 x10 x11 x12 x13)
def val_main_call1_cst_1 : (⟨S_, .f32⟩ : BufTy).Contents (Elt F) :=
  constant S_ .f32 0x00000000#32
def val_main_call1_v7 : (⟨S1, .f32⟩ : BufTy).Contents (Elt F) :=
  Host.reduceAdd (val_main_call1_v6 (F := F) x0 x1 x2 x3 x4 x5 x6 x7 x8 x9 x10 x11 x12 x13) (val_main_call1_cst_1 (F := F)) reducesTo_S1x128000_S1_d1 h_S_
def val_main_call1_v8 : (⟨S1x1, .f32⟩ : BufTy).Contents (Elt F) :=
  broadcastInDim S1x1 ![0] bcast_S1_S1x1_0 (val_main_call1_v7 (F := F) x0 x1 x2 x3 x4 x5 x6 x7 x8 x9 x10 x11 x12 x13)
def val_main_call1_v9 : (⟨S1x1, .f32⟩ : BufTy).Contents (Elt F) :=
  Host.log (val_main_call1_v8 (F := F) x0 x1 x2 x3 x4 x5 x6 x7 x8 x9 x10 x11 x12 x13)
def val_main_call1_v10 : (⟨S1x128000, .f32⟩ : BufTy).Contents (Elt F) :=
  broadcastInDim S1x128000 ![0, 1] bcast_S1x1_S1x128000_0_1 (val_main_call1_v9 (F := F) x0 x1 x2 x3 x4 x5 x6 x7 x8 x9 x10 x11 x12 x13)
def val_main_v74 : (⟨S1x128000, .f32⟩ : BufTy).Contents (Elt F) :=
  subf (val_main_call1_v5 (F := F) x0 x1 x2 x3 x4 x5 x6 x7 x8 x9 x10 x11 x12 x13) (val_main_call1_v10 (F := F) x0 x1 x2 x3 x4 x5 x6 x7 x8 x9 x10 x11 x12 x13)
def val_main_v75 : (⟨S1x1x1024, .f32⟩ : BufTy).Contents (Elt F) :=
  broadcastInDim S1x1x1024 ![1, 2] bcast_S1x1024_S1x1x1024_1_2 (val_main_v69 (F := F) x0 x1 x2 x3 x4 x5 x6 x7 x8 x9 x10 x11)
end Cert.ReferenceIdeal.Read

end
-- ==== Proof.LibOneAxisContraction.lean ====
import Idealize.ShloMosaic.Lib.ValueLayout
import Idealize.ShloMosaic.Lib.StackMember

noncomputable section

namespace Cert.Dots

open Idealize.ShloMosaic Idealize.ShloMosaic.TcCoe Idealize.ShloMosaic.ValueIdx
open scoped BigOperators

section
variable {sl sr so : Shape} {φ₁ φ₂ : FTy} (d : DotDims sl sr so) (K : Nat) (hr : d.contr.rank = 1)
  (hs : d.contr.size ⟨0, by omega⟩ = K) (prec : Option ContractPrecision)

-- A contraction over one axis, read at an entry, is the sum over the contracted coordinate once the operand indices there are named.
theorem matmul_zero_apply_of
    (lhs : FVec Ideal sl φ₁) (rhs : FVec Ideal sr φ₂) (j : so.Idx) (L : Fin K → sl.Idx) (R : Fin K → sr.Idx)
    (hL : ∀ c, d.lhsIdx j ((contrEquiv1 d K hr hs).symm c) = L c)
    (hR : ∀ c, d.rhsIdx j ((contrEquiv1 d K hr hs).symm c) = R c) :
    matmul d prec lhs rhs (constant so .f32 0x00000000#32) j = ∑ c : Fin K, lhs (L c) * rhs (R c) := by
  show FloatOps.matmul d prec lhs rhs (constant so .f32 0x00000000#32) j = _
  rw [Ideal.matmul_constant_zero_apply, ← Equiv.sum_comp (contrEquiv1 d K hr hs).symm]
  exact Finset.sum_congr rfl fun c _ => by rw [hL c, hR c]
end

variable {m n K : Nat} {φ₁ φ₂ : FTy} {prec : Option ContractPrecision}

-- Two functions on a rank-2 index set agree if they agree at every pair of coordinates.
theorem ext2 {α : Type} {f g : (⟨2, ![m, n]⟩ : Shape).Idx → α} (h : ∀ p q, f (ix2 p q) = g (ix2 p q)) : f = g :=
  funext fun j => by rw [eq_ix2 j]; exact h _ _

-- Entry (p, q) of a product with the right operand's rows: row p against row q.
theorem matmul_nt_apply (d : DotDims ⟨2, ![m, K]⟩ ⟨2, ![n, K]⟩ ⟨2, ![m, n]⟩) (hd : d = .transposedRhs m K n)
    (l : FVec Ideal ⟨2, ![m, K]⟩ φ₁) (r : FVec Ideal ⟨2, ![n, K]⟩ φ₂) (p : Fin m) (q : Fin n) :
    matmul d prec l r (constant _ .f32 0x00000000#32) (ix2 p q) = ∑ c : Fin K, l (ix2 p c) * r (ix2 q c) := by
  subst hd
  refine matmul_zero_apply_of _ K rfl rfl prec l r _ _ _ (fun c => ?_) (fun c => ?_) <;>
  · have hk := contrEquiv1_symm_val (DotDims.transposedRhs m K n) K rfl rfl c
    funext a; apply Fin.ext
    match a with
    | ⟨0, _⟩ => simp [DotDims.lhsIdx, DotDims.rhsIdx, DotDims.transposedRhs]; rfl
    | ⟨1, _⟩ => simp [DotDims.lhsIdx, DotDims.rhsIdx, DotDims.transposedRhs]; exact hk

-- The plain product with the transposed matrix pairs the same entries: row p against row q.
theorem dotT_apply (dR : DotDims ⟨2, ![m, K]⟩ ⟨2, ![K, n]⟩ ⟨2, ![m, n]⟩) (hR : dR = .plain m K n)
    (l : FVec Ideal ⟨2, ![m, K]⟩ φ₁) (r : FVec Ideal ⟨2, ![n, K]⟩ φ₂)
    (ht : (⟨2, ![n, K]⟩ : Shape).Transposes [1, 0] ⟨2, ![K, n]⟩) (p : Fin m) (q : Fin n) :
    Host.dotGeneral dR prec l (transpose ⟨2, ![K, n]⟩ [1, 0] r ht) (ix2 p q) = ∑ c : Fin K, l (ix2 p c) * r (ix2 q c) := by
  subst hR
  rw [StackMember.dotGeneral_plain_apply]
  exact Finset.sum_congr rfl fun c _ => congrArg (_ * ·) (transpose_ix2_apply r ht c q)

theorem nt_eq_dotT (d : DotDims ⟨2, ![m, K]⟩ ⟨2, ![n, K]⟩ ⟨2, ![m, n]⟩) (hd : d = .transposedRhs m K n)
    (dR : DotDims ⟨2, ![m, K]⟩ ⟨2, ![K, n]⟩ ⟨2, ![m, n]⟩) (hR : dR = .plain m K n)
    (l : FVec Ideal ⟨2, ![m, K]⟩ φ₁) (r : FVec Ideal ⟨2, ![n, K]⟩ φ₂)
    (ht : (⟨2, ![n, K]⟩ : Shape).Transposes [1, 0] ⟨2, ![K, n]⟩) :
    matmul d prec l r (constant _ .f32 0x00000000#32) = Host.dotGeneral dR prec l (transpose ⟨2, ![K, n]⟩ [1, 0] r ht) :=
  ext2 fun p q => (matmul_nt_apply d hd l r p q).trans (dotT_apply dR hR l r ht p q).symm

-- Two rows against the two column halves of one matrix make the contraction of the joined row: a sum over K + K terms splits at K.
theorem halves_bridge {N : Nat} (d : DotDims ⟨2, ![m, K]⟩ ⟨2, ![n, K]⟩ ⟨2, ![m, n]⟩) (hd : d = .transposedRhs m K n)
    (dR : DotDims ⟨2, ![m, N]⟩ ⟨2, ![N, n]⟩ ⟨2, ![m, n]⟩) (hR : dR = .plain m N n)
    (a b : FVec Ideal ⟨2, ![m, K]⟩ .f32) (W : FVec Ideal ⟨2, ![n, N]⟩ .f32) (hN : N = K + K)
    (h0 : (⟨2, ![n, N]⟩ : Shape).Slices ![0, 0] ⟨2, ![n, K]⟩) (h1 : (⟨2, ![n, N]⟩ : Shape).Slices ![0, K] ⟨2, ![n, K]⟩)
    (hc : Shape.Concatenates [⟨2, ![m, K]⟩, ⟨2, ![m, K]⟩] ⟨2, ![m, N]⟩ 1)
    (ht : (⟨2, ![n, N]⟩ : Shape).Transposes [1, 0] ⟨2, ![N, n]⟩) :
    addf (matmul d prec a (extractStridedSlice ⟨2, ![n, K]⟩ ![0, 0] W h0) (constant _ .f32 0x00000000#32))
        (matmul d prec b (extractStridedSlice ⟨2, ![n, K]⟩ ![0, K] W h1) (constant _ .f32 0x00000000#32))
      = Host.dotGeneral dR prec (concatenate ⟨2, ![m, N]⟩ 1 [⟨⟨2, ![m, K]⟩, a⟩, ⟨⟨2, ![m, K]⟩, b⟩] hc)
          (transpose ⟨2, ![N, n]⟩ [1, 0] W ht) := by
  subst hN
  refine ext2 fun p q => ?_
  rw [dotT_apply dR hR, addf_apply, matmul_nt_apply d hd, matmul_nt_apply d hd, Fin.sum_univ_add]
  exact congrArg₂ (· + ·)
    (Finset.sum_congr rfl fun c _ => congrArg₂ (· * ·)
      (concatenate_pair_apply_left 1 a b hc _ rfl (ix2 p c) fun i => match i with | ⟨0, _⟩ => rfl | ⟨1, _⟩ => rfl).symm
      (slice2_axis1_apply 0 W h0 q c _ (Nat.zero_add _).symm))
    (Finset.sum_congr rfl fun c _ => congrArg₂ (· * ·)
      (concatenate_pair_apply_right 1 a b hc _ rfl rfl (ix2 p c)
        (fun i hi => match i, hi with | ⟨0, _⟩, _ => rfl | ⟨1, _⟩, hi => absurd rfl hi) (Nat.add_comm _ _)).symm
      (slice2_axis1_apply K W h1 q c _ rfl))

-- A vector laid along every row reads its entry q in column q.
theorem rowBcast_apply {α : Type} (x : (⟨1, ![n]⟩ : Shape).Idx → α)
    (hd : (⟨1, ![n]⟩ : Shape).BroadcastsInDim ⟨2, ![m, n]⟩ ![1]) (p : Fin m) (q : Fin n) :
    broadcastInDim ⟨2, ![m, n]⟩ ![1] hd x (ix2 p q) = x (ix1 q) :=
  broadcastInDim_apply ![1] hd x _ (ix1 q) fun a => match a with
    | ⟨0, _⟩ => by have := q.isLt; show q.val = if n = 1 then 0 else q.val; split <;> omega

theorem rowCast_eq {α : Type} (x : (⟨1, ![n]⟩ : Shape).Idx → α) (h : (⟨1, ![n]⟩ : Shape).ShapeCasts ⟨2, ![1, n]⟩)
    (hd : (⟨1, ![n]⟩ : Shape).BroadcastsInDim ⟨2, ![1, n]⟩ ![1]) :
    shapeCast ⟨2, ![1, n]⟩ x h = broadcastInDim ⟨2, ![1, n]⟩ ![1] hd x :=
  ext2 fun p q => (shapeCast_a_1a_apply x h p q).trans (rowBcast_apply x hd p q).symm

end Cert.Dots

end
-- ==== Proof.BridgeEmb.lean ====
import proofs.«431030_j74440373174878_3_alg».proof.Proof.KiHost
import proofs.«431030_j74440373174878_3_alg».proof.Proof.RefReadP
import proofs.«431030_j74440373174878_3_alg».proof.Proof.LibOneAxisContraction

noncomputable section

namespace Cert.Bridge

open Idealize.ShloMosaic Idealize.ShloMosaic.TcCoe Cert.Dots
open Cert.ReferenceIdeal (S1 S1x1x1024 S128000x1024)
open Cert.ReferenceIdeal.Read

-- The comparison 0 < 0 fails, so the selection between 0 + 1024 and 0 takes the 0.
theorem col_start_zero : val_main_v6 (F := Ideal) = constantI Cert.ReferenceIdeal.S_ 32 0#32 := funext fun _ => rfl

-- Dropping the unit axis of the one-row slice and putting it back changes no entry.
theorem emb_row_bridge (x0 : (⟨S1, .i32⟩ : BufTy).Contents (Elt Ideal)) (x3 : (⟨S128000x1024, .f32⟩ : BufTy).Contents (Elt Ideal)) :
    Cert.KernelIdeal.Hand.embRow (F := Ideal) x0 x3 = val_main_v9 (F := Ideal) x0 x3 := by
  refine Eq.trans ?_ ((shapeCast_shapeCast (val_main_v7 (F := Ideal) x0 x3) Cert.ReferenceIdeal.Gen.shapeCasts_S1x1024_S1024
    (Eq.symm Cert.ReferenceIdeal.Gen.shapeCasts_S1x1024_S1024)).symm.trans (rowCast_eq _ _ Cert.ReferenceIdeal.Gen.bcast_S1024_S1x1024_1))
  unfold Cert.KernelIdeal.Hand.embRow val_main_v7
  rw [col_start_zero]
  rfl

theorem hid_row_bridge (x1 : (⟨S1x1x1024, .f32⟩ : BufTy).Contents (Elt Ideal)) :
    shapeCast _ x1 Cert.KernelIdeal.Gen.shapeCasts_S1x1x1024_S1x1024 = val_main_v10 (F := Ideal) x1 := rfl

end Cert.Bridge

end
-- ==== Proof.BridgeAttn.lean ====
import proofs.«431030_j74440373174878_3_alg».proof.Proof.Gen.KernelIdeal.Skeleton
import proofs.«431030_j74440373174878_3_alg».proof.Proof.RefReadP
import proofs.«431030_j74440373174878_3_alg».proof.Proof.LibOneAxisContraction

noncomputable section

namespace Cert.Bridge

open Idealize.ShloMosaic Idealize.ShloMosaic.TcCoe Idealize.ShloMosaic.ValueIdx Cert.Dots
open scoped BigOperators
open Cert.ReferenceIdeal (S1 S1x1x1024 S128000x1024 S10x2048 S10)
open Cert.ReferenceIdeal.Read Cert.KernelIdeal.Gen

theorem k0_pay2_eq (e : Vec Ideal Cert.KernelIdeal.S1x1024 .f32) : k0_pay2 (F := Ideal) e = e := shapeCast_self e _
theorem k0_pay3_eq (h : Vec Ideal Cert.KernelIdeal.S1x1024 .f32) : k0_pay3 (F := Ideal) h = h := shapeCast_self h _

section Row
variable {n : Nat} (hsc : (⟨2, ![1, n]⟩ : Shape).ShapeCasts ⟨2, ![1, n]⟩)
  (h : Shape.Reduces ⟨2, ![1, n]⟩ [1] ⟨1, ![1]⟩) (h' : Shape.ReducesTo ⟨2, ![1, n]⟩ [1] ⟨1, ![1]⟩)
  (hφ : FKind.Formats .f32) (hM : (0xFF800000#32 : BitVec (FTy.bits .f32)) = FKind.maximumf.neutral .f32 hφ)
  (hA : (0x00000000#32 : BitVec (FTy.bits .f32)) = FKind.add.neutral .f32 hφ)
  (hc : (⟨1, ![1]⟩ : Shape).ShapeCasts ⟨2, ![1, 1]⟩) (hb : (⟨2, ![1, 1]⟩ : Shape).Broadcasts ⟨2, ![1, n]⟩)
  (b0 : (⟨0, ![]⟩ : Shape).BroadcastsInDim ⟨1, ![1]⟩ ![])
  (b1 : (⟨1, ![1]⟩ : Shape).BroadcastsInDim ⟨2, ![1, 1]⟩ ![0])
  (b2 : (⟨2, ![1, 1]⟩ : Shape).BroadcastsInDim ⟨2, ![1, n]⟩ ![0, 1])
  (hu : 0 < (⟨0, ![]⟩ : Shape).numel)

-- One number laid along a row is that number at every entry, in either spelling.
theorem col_eq {α : Type} (m : (⟨1, ![1]⟩ : Shape).Idx → α) :
    broadcastTo ⟨2, ![1, n]⟩ (shapeCast ⟨2, ![1, 1]⟩ m hc) hb
      = broadcastInDim ⟨2, ![1, n]⟩ ![0, 1] b2 (broadcastInDim ⟨2, ![1, 1]⟩ ![0] b1 m) :=
  funext fun i =>
    ((broadcastTo_apply _ hb i (ix2 0 0) fun a => match a with | ⟨0, _⟩ => rfl | ⟨1, _⟩ => rfl).trans
      (shapeCast_apply m hc (ix2 0 0) (ix1 0) rfl)).trans
    ((broadcastInDim_apply _ b2 _ i (ix2 0 0) fun a => match a with | ⟨0, _⟩ => rfl | ⟨1, _⟩ => rfl).trans
      (broadcastInDim_apply _ b1 m (ix2 0 0) (ix1 0) fun a => match a with | ⟨0, _⟩ => rfl)).symm

-- The fold of max from -∞ along the row, in either spelling.
theorem rowMax_eq (x : FVec Ideal ⟨2, ![1, n]⟩ .f32) :
    multiReduction .maximumf [1] ⟨1, ![1]⟩ x 0xFF800000#32 h hφ hM
      = Host.reduce FloatOps.maximumf x (constant (F := Ideal) ⟨0, ![]⟩ .f32 0xFF800000#32) h' hu := by
  funext j
  rw [multiReduction_maximumf_eq_fold, Host.reduce_eq_fold, h'.drop_eq_drop h]
  rfl

-- The maximum with -∞ changes nothing.
theorem negInf_max (y : FVec Ideal ⟨1, ![1]⟩ .f32) :
    maximumf (broadcastInDim ⟨1, ![1]⟩ ![] b0 (constant (F := Ideal) ⟨0, ![]⟩ .f32 0xFF800000#32)) y = y := by
  funext j
  show max (Ideal.ofBits .f32 0xFF800000#32) (y j) = y j
  simp [Ideal.ofBits, Ideal.ieee]

-- The sum of the exponentials along the row, in either spelling.
theorem expSum_eq (y : FVec Ideal ⟨2, ![1, n]⟩ .f32) :
    multiReduction .add [1] ⟨1, ![1]⟩ (exp y) 0x00000000#32 h hφ hA
      = Host.reduceAdd (Host.exp y) (constant (F := Ideal) ⟨0, ![]⟩ .f32 0x00000000#32) h' hu :=
  multiReduction_add_eq_hostReduceAdd (exp y) _ h hφ hA _ h' hu Ideal.ofBits_zero_f32

-- The softmax of a row is the same chain of operations in either spelling.
theorem softmaxRow_bridge (x y : FVec Ideal ⟨2, ![1, n]⟩ .f32) (hxy : x = y) :
    (let s := exp (subf x (broadcastTo ⟨2, ![1, n]⟩ (shapeCast ⟨2, ![1, 1]⟩
        (maximumf (broadcast ⟨1, ![1]⟩ (Scalar.ofBits (F := Ideal) .f32 0xFF800000#32))
          (multiReduction .maximumf [1] ⟨1, ![1]⟩ x 0xFF800000#32 h hφ hM)) hc) hb))
     divf s (broadcastTo ⟨2, ![1, n]⟩ (shapeCast ⟨2, ![1, 1]⟩ (multiReduction .add [1] ⟨1, ![1]⟩ s 0x00000000#32 h hφ hA) hc) hb))
    = (let s := Host.exp (subf y (broadcastInDim ⟨2, ![1, n]⟩ ![0, 1] b2 (broadcastInDim ⟨2, ![1, 1]⟩ ![0] b1
        (maximumf (broadcastInDim ⟨1, ![1]⟩ ![] b0 (constant (F := Ideal) ⟨0, ![]⟩ .f32 0xFF800000#32))
          (Host.reduce FloatOps.maximumf y (constant (F := Ideal) ⟨0, ![]⟩ .f32 0xFF800000#32) h' hu)))))
       Host.divf s (broadcastInDim ⟨2, ![1, n]⟩ ![0, 1] b2 (broadcastInDim ⟨2, ![1, 1]⟩ ![0] b1
        (Host.reduceAdd s (constant (F := Ideal) ⟨0, ![]⟩ .f32 0x00000000#32) h' hu)))) := by
  subst hxy
  dsimp only
  rw [rowMax_eq h h' hφ hM hu, col_eq hc hb b1 b2, expSum_eq h h' hφ hA hu, col_eq hc hb b1 b2]
  rfl

-- The log-softmax of a row likewise; the reference's further maximum with -∞ changes nothing.
theorem logsoftmaxRow_bridge (x : FVec Ideal ⟨2, ![1, n]⟩ .f32) :
    (let v1 := shapeCast ⟨2, ![1, n]⟩ x hsc
     let v5 := subf v1 (broadcastTo ⟨2, ![1, n]⟩ (shapeCast ⟨2, ![1, 1]⟩
        (multiReduction .maximumf [1] ⟨1, ![1]⟩ v1 0xFF800000#32 h hφ hM) hc) hb)
     subf v5 (broadcastTo ⟨2, ![1, n]⟩ (log (shapeCast ⟨2, ![1, 1]⟩
        (multiReduction .add [1] ⟨1, ![1]⟩ (exp v5) 0x00000000#32 h hφ hA) hc)) hb))
    = (let c5 := subf x (broadcastInDim ⟨2, ![1, n]⟩ ![0, 1] b2 (broadcastInDim ⟨2, ![1, 1]⟩ ![0] b1
          (maximumf (broadcastInDim ⟨1, ![1]⟩ ![] b0 (constant (F := Ideal) ⟨0, ![]⟩ .f32 0xFF800000#32))
            (Host.reduce FloatOps.maximumf x (constant (F := Ideal) ⟨0, ![]⟩ .f32 0xFF800000#32) h' hu))))
       subf c5 (broadcastInDim ⟨2, ![1, n]⟩ ![0, 1] b2 (Host.log (broadcastInDim ⟨2, ![1, 1]⟩ ![0] b1
          (Host.reduceAdd (Host.exp c5) (constant (F := Ideal) ⟨0, ![]⟩ .f32 0x00000000#32) h' hu))))) := by
  dsimp only
  rw [shapeCast_self x hsc, negInf_max, rowMax_eq h h' hφ hM hu, col_eq hc hb b1 b2, expSum_eq h h' hφ hA hu]
  exact congrArg (subf _) (col_eq hc hb b1 b2 (log _))

end Row

variable (x0 : (⟨S1, .i32⟩ : BufTy).Contents (Elt Ideal)) (x1 : (⟨S1x1x1024, .f32⟩ : BufTy).Contents (Elt Ideal))
  (x3 : (⟨S128000x1024, .f32⟩ : BufTy).Contents (Elt Ideal)) (x4 : (⟨S10x2048, .f32⟩ : BufTy).Contents (Elt Ideal))
  (x5 : (⟨S10, .f32⟩ : BufTy).Contents (Elt Ideal))

-- The contraction over the joined row of 2048 entries is the sum of the contractions over its two halves; the softmax after it is one chain.
theorem attn_bridge (e h : Vec Ideal Cert.KernelIdeal.S1x1024 .f32) (ab : Vec Ideal Cert.KernelIdeal.S1x10 .f32)
    (he : e = val_main_v9 (F := Ideal) x0 x3) (hh : h = val_main_v10 (F := Ideal) x1)
    (hab : ab = shapeCast _ x5 Cert.KernelIdeal.Facts₀.shapeCasts_S10_S1x10) :
    k0_pay4 (F := Ideal) e h x4 ab = val_main_v26 (F := Ideal) x0 x1 x3 x4 x5 := by
  subst he hh hab
  refine softmaxRow_bridge (n := 10) Cert.KernelIdeal.Facts₀.reduces_S1x10_S1 Cert.ReferenceIdeal.Gen.reducesTo_S1x10_S1_d1
    (.inl rfl) rfl rfl Cert.KernelIdeal.Facts₀.shapeCasts_S1_S1x1 Cert.KernelIdeal.Facts₀.broadcasts_S1x1_S1x10
    Cert.ReferenceIdeal.Gen.bcast_S_S1 Cert.ReferenceIdeal.Gen.bcast_S1_S1x1_0 Cert.ReferenceIdeal.Gen.bcast_S1x1_S1x10_0_1
    Cert.ReferenceIdeal.Gen.h_S_ _ _ ?_
  rw [k0_pay2_eq, k0_pay3_eq, shapeCast_self, halves_bridge Cert.KernelIdeal.dot_S1x1024_S10x1024_S1x10_1_1_0_0_n_n rfl
      Cert.ReferenceIdeal.dot_S1x2048_S2048x10_S1x10_1_0_0_1_n_n rfl _ _ x4 rfl _ _
      Cert.ReferenceIdeal.Gen.concatenates_S1x1024_S1x1024_S1x2048_d1 Cert.ReferenceIdeal.Gen.transposes_S10x2048_S2048x10_1_0,
    rowCast_eq x5 _ Cert.ReferenceIdeal.Gen.bcast_S10_S1x10_1]
  rfl

end Cert.Bridge

end
-- ==== Proof.BridgeHidden.lean ====
import proofs.«431030_j74440373174878_3_alg».proof.Proof.BridgeAttn
import Idealize.ShloMosaic.Lib.IdealHost

noncomputable section

namespace Cert.Bridge

open Idealize.ShloMosaic Idealize.ShloMosaic.TcCoe Idealize.ShloMosaic.ValueIdx Cert.Dots
open scoped BigOperators
open Cert.ReferenceIdeal (S1 S1x1x1024 S10x1024 S128000x1024 S10x2048 S10 S1024x2048 S1024 S3072x1024 S3072)
open Cert.ReferenceIdeal.Read Cert.KernelIdeal.Gen

-- The logistic function is 1 / (1 + exp (-x)).
theorem sig_eq {s : Shape} : (logistic : FVec Ideal s .f32 → FVec Ideal s .f32)
    = fun x j => Ideal.div (Ideal.ofBits .f32 0x3F800000#32) (Ideal.ofBits .f32 0x3F800000#32 + Ideal.exp (-(x j))) := by
  funext x j
  show Ideal.logistic (x j) = _
  rw [Ideal.ofBits_one_f32]
  rfl

variable (x0 : (⟨S1, .i32⟩ : BufTy).Contents (Elt Ideal)) (x1 : (⟨S1x1x1024, .f32⟩ : BufTy).Contents (Elt Ideal))
  (x2 : (⟨S10x1024, .f32⟩ : BufTy).Contents (Elt Ideal)) (x3 : (⟨S128000x1024, .f32⟩ : BufTy).Contents (Elt Ideal))
  (x4 : (⟨S10x2048, .f32⟩ : BufTy).Contents (Elt Ideal)) (x5 : (⟨S10, .f32⟩ : BufTy).Contents (Elt Ideal))
  (x6 : (⟨S1024x2048, .f32⟩ : BufTy).Contents (Elt Ideal)) (x7 : (⟨S1024, .f32⟩ : BufTy).Contents (Elt Ideal))
  (x8 : (⟨S3072x1024, .f32⟩ : BufTy).Contents (Elt Ideal)) (x9 : (⟨S3072, .f32⟩ : BufTy).Contents (Elt Ideal))
  (x10 : (⟨S3072x1024, .f32⟩ : BufTy).Contents (Elt Ideal)) (x11 : (⟨S3072, .f32⟩ : BufTy).Contents (Elt Ideal))

-- After the attention weights both programs apply the same layers: each product with a matrix's rows is the product with the transposed matrix, the combining layer splits its joined row into halves, and the logistic is 1 / (1 + exp (-x)).
theorem hidden_bridge (e h : Vec Ideal Cert.KernelIdeal.S1x1024 .f32) (ab : Vec Ideal Cert.KernelIdeal.S1x10 .f32)
    (cb : Vec Ideal Cert.KernelIdeal.S1x1024 .f32) (bih bhh : Vec Ideal Cert.KernelIdeal.S1x3072 .f32)
    (he : e = val_main_v9 (F := Ideal) x0 x3) (hh : h = val_main_v10 (F := Ideal) x1)
    (hab : ab = shapeCast _ x5 Cert.KernelIdeal.Facts₀.shapeCasts_S10_S1x10)
    (hcb : cb = shapeCast _ x7 Cert.KernelIdeal.Facts₀.shapeCasts_S1024_S1x1024)
    (hbih : bih = shapeCast _ x9 Cert.KernelIdeal.Facts₀.shapeCasts_S3072_S1x3072)
    (hbhh : bhh = shapeCast _ x11 Cert.KernelIdeal.Facts₀.shapeCasts_S3072_S1x3072) :
    k0_pay1 (F := Ideal) (k0_pay3 h) (k0_pay5 e h x4 ab x2 x6 cb) (k0_pay6) x8 bih x10 bhh
      = val_main_v69 (F := Ideal) x0 x1 x2 x3 x4 x5 x6 x7 x8 x9 x10 x11 := by
  have h34 : k0_pay5 (F := Ideal) e h x4 ab x2 x6 cb = val_main_v32 (F := Ideal) x0 x1 x2 x3 x4 x5 x6 x7 := by
    dsimp only [k0_pay5]
    rw [matmul_zero_eq_dotGeneral Cert.KernelIdeal.dot_S1x10_S10x1024_S1x1024_1_0_0_1_n_n,
      attn_bridge x0 x1 x3 x4 x5 e h ab he hh hab, k0_pay2_eq, he, hcb, shapeCast_self,
      halves_bridge Cert.KernelIdeal.dot_S1x1024_S1024x1024_S1x1024_1_1_0_0_n_n rfl
        Cert.ReferenceIdeal.dot_S1x2048_S2048x1024_S1x1024_1_0_0_1_n_n rfl _ _ x6 rfl _ _
        Cert.ReferenceIdeal.Gen.concatenates_S1x1024_S1x1024_S1x2048_d1 Cert.ReferenceIdeal.Gen.transposes_S1024x2048_S2048x1024_1_0,
      rowCast_eq x7 _ Cert.ReferenceIdeal.Gen.bcast_S1024_S1x1024_1]
    rfl
  dsimp only [k0_pay1]
  rw [h34, k0_pay3_eq, hh, hbih, hbhh, shapeCast_self, shapeCast_self,
    nt_eq_dotT Cert.KernelIdeal.dot_S1x1024_S3072x1024_S1x3072_1_1_0_0_n_n rfl
      Cert.ReferenceIdeal.dot_S1x1024_S1024x3072_S1x3072_1_0_0_1_n_n rfl _ x8 Cert.ReferenceIdeal.Gen.transposes_S3072x1024_S1024x3072_1_0,
    nt_eq_dotT Cert.KernelIdeal.dot_S1x1024_S3072x1024_S1x3072_1_1_0_0_n_n rfl
      Cert.ReferenceIdeal.dot_S1x1024_S1024x3072_S1x3072_1_0_0_1_n_n rfl _ x10 Cert.ReferenceIdeal.Gen.transposes_S3072x1024_S1024x3072_1_0,
    rowCast_eq x9 _ Cert.ReferenceIdeal.Gen.bcast_S3072_S1x3072_1, rowCast_eq x11 _ Cert.ReferenceIdeal.Gen.bcast_S3072_S1x3072_1, sig_eq]
  rfl

end Cert.Bridge

end
-- ==== Proof.BridgeLogits.lean ====
import proofs.«431030_j74440373174878_3_alg».proof.Proof.BridgeAttn

noncomputable section

namespace Cert.Bridge

open Idealize.ShloMosaic Idealize.ShloMosaic.TcCoe Idealize.ShloMosaic.ValueIdx Cert.Dots
open scoped BigOperators
open Cert.ReferenceIdeal (S1 S1x1x1024 S10x1024 S128000x1024 S10x2048 S10 S1024x2048 S1024 S3072x1024 S3072 S128000)
open Cert.ReferenceIdeal.Read Cert.KernelIdeal.Gen

variable (x0 : (⟨S1, .i32⟩ : BufTy).Contents (Elt Ideal)) (x1 : (⟨S1x1x1024, .f32⟩ : BufTy).Contents (Elt Ideal))
  (x2 : (⟨S10x1024, .f32⟩ : BufTy).Contents (Elt Ideal)) (x3 : (⟨S128000x1024, .f32⟩ : BufTy).Contents (Elt Ideal))
  (x4 : (⟨S10x2048, .f32⟩ : BufTy).Contents (Elt Ideal)) (x5 : (⟨S10, .f32⟩ : BufTy).Contents (Elt Ideal))
  (x6 : (⟨S1024x2048, .f32⟩ : BufTy).Contents (Elt Ideal)) (x7 : (⟨S1024, .f32⟩ : BufTy).Contents (Elt Ideal))
  (x8 : (⟨S3072x1024, .f32⟩ : BufTy).Contents (Elt Ideal)) (x9 : (⟨S3072, .f32⟩ : BufTy).Contents (Elt Ideal))
  (x10 : (⟨S3072x1024, .f32⟩ : BufTy).Contents (Elt Ideal)) (x11 : (⟨S3072, .f32⟩ : BufTy).Contents (Elt Ideal))
  (x12 : (⟨S128000x1024, .f32⟩ : BufTy).Contents (Elt Ideal)) (x13 : (⟨S128000, .f32⟩ : BufTy).Contents (Elt Ideal))

-- The reference's logits at column J: the hidden row against row J of the output matrix, plus the bias entry.
theorem v73_apply_col (J : Fin 128000) :
    val_main_v73 (F := Ideal) x0 x1 x2 x3 x4 x5 x6 x7 x8 x9 x10 x11 x12 x13 (ix2 (0 : Fin 1) J)
      = (∑ k : Fin 1024, val_main_v69 (F := Ideal) x0 x1 x2 x3 x4 x5 x6 x7 x8 x9 x10 x11 (ix2 (0 : Fin 1) k) * x12 (ix2 J k))
        + x13 (ix1 J) :=
  congrArg₂ (· + ·) (dotT_apply _ rfl _ x12 _ 0 J) (rowBcast_apply x13 _ 0 J)

theorem logits_tile_bridge (hn : Vec Ideal Cert.KernelIdeal.S1x1024 .f32) (wb : Vec Ideal Cert.KernelIdeal.S3200x1024 .f32)
    (bb : Vec Ideal Cert.KernelIdeal.S1x3200 .f32)
    (hhn : hn = val_main_v69 (F := Ideal) x0 x1 x2 x3 x4 x5 x6 x7 x8 x9 x10 x11)
    (r0 : Nat) (hr : r0 + 3200 ≤ 128000)
    (hwb : ∀ (p : Fin 3200) (k : Fin 1024), wb (ix2 p k) = x12 (ix2 (⟨r0 + p.val, by omega⟩ : Fin 128000) k))
    (hbb : ∀ p : Fin 3200, bb (ix2 (0 : Fin 1) p) = x13 (ix1 (⟨r0 + p.val, by omega⟩ : Fin 128000)))
    (q : Fin 3200) :
    k1_pay1 (F := Ideal) hn wb bb (ix2 (0 : Fin 1) q)
      = val_main_v73 (F := Ideal) x0 x1 x2 x3 x4 x5 x6 x7 x8 x9 x10 x11 x12 x13 (ix2 (0 : Fin 1) (⟨r0 + q.val, by omega⟩ : Fin 128000)) := by
  subst hhn
  dsimp only [k1_pay1]
  rw [v73_apply_col, shapeCast_self, shapeCast_self, addf_apply,
    matmul_nt_apply Cert.KernelIdeal.dot_S1x1024_S3200x1024_S1x3200_1_1_0_0_n_n rfl, hbb q]
  exact congrArg (· + _) (Finset.sum_congr rfl fun k _ => congrArg₂ (· * ·) rfl (hwb q k))

theorem logsoftmax_bridge (lg : Vec Ideal Cert.KernelIdeal.S1x128000 .f32)
    (hlg : lg = val_main_v73 (F := Ideal) x0 x1 x2 x3 x4 x5 x6 x7 x8 x9 x10 x11 x12 x13) :
    k2_pay1 (F := Ideal) lg = val_main_v74 (F := Ideal) x0 x1 x2 x3 x4 x5 x6 x7 x8 x9 x10 x11 x12 x13 := by
  subst hlg
  exact logsoftmaxRow_bridge (n := 128000) Cert.KernelIdeal.Facts₀.shapeCasts_S1x128000_S1x128000
    Cert.KernelIdeal.Facts₀.reduces_S1x128000_S1 Cert.ReferenceIdeal.Facts₀.reducesTo_S1x128000_S1_d1 (.inl rfl) rfl rfl
    Cert.KernelIdeal.Facts₀.shapeCasts_S1_S1x1 Cert.KernelIdeal.Facts₀.broadcasts_S1x1_S1x128000
    Cert.ReferenceIdeal.Facts₀.bcast_S_S1 Cert.ReferenceIdeal.Facts₀.bcast_S1_S1x1_0
    Cert.ReferenceIdeal.Facts₀.bcast_S1x1_S1x128000_0_1 Cert.ReferenceIdeal.Facts₀.h_S_ _

end Cert.Bridge

end
-- ==== Proof.KiValues.lean ====
import proofs.«431030_j74440373174878_3_alg».proof.Proof.KiRun
import proofs.«431030_j74440373174878_3_alg».proof.Proof.KiBlocks
import proofs.«431030_j74440373174878_3_alg».proof.Proof.KiPrologue
import proofs.«431030_j74440373174878_3_alg».proof.Proof.KiHost
import proofs.«431030_j74440373174878_3_alg».proof.Proof.KiFrame
import proofs.«431030_j74440373174878_3_alg».proof.Proof.BridgeEmb
import proofs.«431030_j74440373174878_3_alg».proof.Proof.BridgeAttn
import proofs.«431030_j74440373174878_3_alg».proof.Proof.BridgeHidden
import proofs.«431030_j74440373174878_3_alg».proof.Proof.BridgeLogits

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

abbrev argAt (c : Dev nD) (b : Ref sig .tc) : Buf (Elt Ideal) ((c : Thread nD τ).loc b) := m ((c : Thread nD τ).loc b)

/-- The reference's stages of core `c`'s launch arguments: the gathered row, the hidden row, the attention weights,
    the new hidden row, the logits, their log-softmax, the widened hidden row. -/
abbrev rEmb (c : Dev nD) := Cert.ReferenceIdeal.Read.val_main_v9 (F := Ideal) (argAt m c main_arg0) (argAt m c main_arg3)
abbrev rHid0 (c : Dev nD) := Cert.ReferenceIdeal.Read.val_main_v10 (F := Ideal) (argAt m c main_arg1)
abbrev rAttn (c : Dev nD) := Cert.ReferenceIdeal.Read.val_main_v26 (F := Ideal) (argAt m c main_arg0) (argAt m c main_arg1) (argAt m c main_arg3) (argAt m c main_arg4) (argAt m c main_arg5)
abbrev rHid (c : Dev nD) := Cert.ReferenceIdeal.Read.val_main_v69 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11)
abbrev rLogits (c : Dev nD) := Cert.ReferenceIdeal.Read.val_main_v73 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13)
abbrev rOut (c : Dev nD) := Cert.ReferenceIdeal.Read.val_main_v74 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) (argAt m c main_arg13)
abbrev rHid3 (c : Dev nD) := Cert.ReferenceIdeal.Read.val_main_v75 (F := Ideal) (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11)

theorem V1_of_ne (c : Dev nD) (b : Ref sig .tc) (hb : b ∉ ([main_v0, main_c, main_v1, main_c_0, main_v2, main_v3, main_c_1, main_v4, main_v5, main_v6, main_v7, main_v8, main_v9, main_v10] : List (Ref sig .tc))) :
    V1 m ρ c b = argAt m c b :=
  prologue_of_ne (W0 m ρ c) b hb
theorem V1_v4 (c : Dev nD) : V1 m ρ c main_v4 = rEmb m c := (prologue_v4 (W0 m ρ c)).trans (Cert.Bridge.emb_row_bridge _ _)
theorem V1_v5 (c : Dev nD) : V1 m ρ c main_v5 = rHid0 m c := (prologue_v5 (W0 m ρ c)).trans (Cert.Bridge.hid_row_bridge _)

theorem V2_hidden (c : Dev nD) : V2 m ρ c main_v11_0 = rHid m c := by
  show W2 m ρ c (Proc.devRef .tc (Pipeline.arrRef spec0 11)) = _
  rw [W2_arr, final0_11, V1_of_ne m ρ c main_arg2 (by decide), V1_of_ne m ρ c main_arg4 (by decide), V1_of_ne m ρ c main_arg6 (by decide),
    V1_of_ne m ρ c main_arg8 (by decide), V1_of_ne m ρ c main_arg10 (by decide)]
  exact Cert.Bridge.hidden_bridge _ _ _ _ _ _ _ _ _ _ _ _ _ _ _ _ _ _ (V1_v4 m ρ c) (V1_v5 m ρ c) (prologue_v6 (W0 m ρ c)) (prologue_v7 (W0 m ρ c)) (prologue_v8 (W0 m ρ c)) (prologue_v9 (W0 m ρ c))

theorem V2_attn (c : Dev nD) : V2 m ρ c main_v11_1 = rAttn m c := by
  show W2 m ρ c (Proc.devRef .tc (Pipeline.arrRef spec0 12)) = _
  rw [W2_arr, final0_12, V1_of_ne m ρ c main_arg4 (by decide)]
  exact Cert.Bridge.attn_bridge _ _ _ _ _ _ _ _ (V1_v4 m ρ c) (V1_v5 m ρ c) (prologue_v6 (W0 m ρ c))

theorem V2_arg12 (c : Dev nD) : V2 m ρ c main_arg12 = argAt m c main_arg12 :=
  (W2_of_ne m ρ c main_arg12 (by decide)).trans (V1_of_ne m ρ c main_arg12 (by decide))
theorem V2_v10 (c : Dev nD) : V2 m ρ c main_v10 = shapeCast _ (argAt m c main_arg13) shapeCasts_S128000_S1x128000 :=
  (W2_of_ne m ρ c main_v10 (by decide)).trans (prologue_v10 (W0 m ρ c))

theorem biasRow_apply (x : (⟨S128000, .f32⟩ : BufTy).Contents (Elt Ideal)) (k : Fin 128000) :
    (shapeCast S1x128000 x shapeCasts_S128000_S1x128000) (ix2 (0 : Fin 1) k) = x (ix1 k) :=
  (shapeCast_addUnit_apply ![128000] x shapeCasts_S128000_S1x128000 (ix2 (0 : Fin 1) k)).trans
    (congrArg x (funext fun a => match a with | ⟨0, _⟩ => rfl))

/-- Stretch `t` of the logits row is columns `3200 t …` of the reference's. -/
theorem V3_logits (c : Dev nD) : V3 m ρ c main_v12 = rLogits m c := by
  show W3 m ρ c (Proc.devRef .tc (Pipeline.arrRef spec1 3)) = _
  rw [W3_arr]
  refine (dat1 (V2 m ρ) c).arrAt_eq_of_cover 3 _ (fun t _ => ?_) cover1_3_arr
  rw [flushed1_3_eq]
  funext j
  obtain ⟨p, q, rfl⟩ : ∃ (p : Fin 1) (q : Fin 3200), j = ix2 p q := ⟨j 0, j 1, eq_ix2 j⟩
  obtain rfl : p = 0 := Subsingleton.elim _ _
  show k1_pay1 (iblk1 (V2 m ρ) c 0 t) (iblk1 (V2 m ρ) c 1 t) (iblk1 (V2 m ρ) c 2 t) (ix2 (0 : Fin 1) q)
    = rLogits m c (((cfg1.win 3).blk t).view.emb (ix2 (0 : Fin 1) q))
  rw [emb1_3]
  exact Cert.Bridge.logits_tile_bridge _ _ _ _ _ _ _ _ _ _ _ _ _ _ _ _ _
    (by rw [iblk1_0_eq]; exact V2_hidden m ρ c) (3200 * t.val) (by have := pts1 t; omega)
    (fun p k => by rw [iblk1_1_apply, V2_arg12])
    (fun p => by rw [iblk1_2_apply, V2_v10]; exact biasRow_apply _ _) q

theorem V4_out (c : Dev nD) : V4 m ρ c main_v13 = rOut m c := by
  show W4 m ρ c (Proc.devRef .tc (Pipeline.arrRef spec2 1)) = _
  rw [W4_arr, final2_1]
  exact Cert.Bridge.logsoftmax_bridge _ _ _ _ _ _ _ _ _ _ _ _ _ _ _ (V3_logits m ρ c)

/-- The second call only reads the new hidden row and the third does not see it. -/
theorem V4_hidden (c : Dev nD) : V4 m ρ c main_v11_0 = rHid m c :=
  (W4_of_ne m ρ c main_v11_0 (by decide)).trans <|
    ((W3_arr m ρ c 0).trans (((dat1 (V2 m ρ) c).arrAt_in 0 rfl _).trans (A_eq1 (V2 m ρ) c 0))).trans (V2_hidden m ρ c)

theorem W5_hidden (c : Dev nD) : W5 m ρ c (Proc.devRef .tc main_v14) = rHid3 m c := by
  refine (epilogue_v14 (W4 m ρ c)).trans ?_
  unfold rHid3 Cert.ReferenceIdeal.Read.val_main_v75
  exact congrArg _ (V4_hidden m ρ c)

theorem run_values : θ_run defs (onTc (τ := τ) (main (F := Ideal))) ⟨m, fun _ => 0, ρ⟩ (fun r => ∀ c : Dev nD,
      r.2.mem ((c.tc : Thread nD τ).loc main_v13) = rOut m c
      ∧ r.2.mem ((c.tc : Thread nD τ).loc main_v14) = rHid3 m c
      ∧ r.2.mem ((c.tc : Thread nD τ).loc main_v11_1) = rAttn m c
      ∧ ArgsKept m r.2 c) :=
  (θ_run defs _ _).mono (fun r h c =>
    ⟨(h c _ (mem_uc main_v13 (by decide))).trans ((epilogue_of_ne (W4 m ρ c) main_v13 (by decide)).trans (V4_out m ρ c)),
     (h c _ (mem_uc main_v14 (by decide))).trans (W5_hidden m ρ c),
     (h c _ (mem_uc main_v11_1 (by decide))).trans ((epilogue_of_ne (W4 m ρ c) main_v11_1 (by decide)).trans <|
       (W4_of_ne m ρ c main_v11_1 (by decide)).trans <| (W3_of_ne m ρ c main_v11_1 (by decide)).trans (V2_attn m ρ c)),
     args_kept m ρ h c⟩)
    (run_all m ρ)

end Cert.KernelIdeal.Hand

end
-- ==== Proof.RefRun.lean ====
import proofs.«431030_j74440373174878_3_alg».proof.Proof.RefRunP
import proofs.«431030_j74440373174878_3_alg».proof.Proof.RefReadP

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.Read Cert.ReferenceIdeal.Value

variable {F : FTy → Type} [FloatOps F]

def Ssa : Nat → List (HloOp τ sig (Elt F)) → Prop
  | _, [] => True
  | i, op :: l => (∀ r : Ref sig .tc, Proc.devRef .tc r ∈ op.writes → r.idx.val = i) ∧ Ssa (i + 1) l

theorem Ssa.le : ∀ (l : List (HloOp τ sig (Elt F))) (i : Nat), Ssa i l → ∀ n, ∀ op ∈ l.drop n, ∀ r : Ref sig .tc, Proc.devRef .tc r ∈ op.writes → i + n ≤ r.idx.val
  | [], _, _, _, _, ho, _, _ => by simp at ho
  | a :: l, i, h, 0, op, ho, r, hr => by
    rcases List.mem_cons.mp ho with rfl | ho
    · exact (h.1 r hr).ge
    · have := Ssa.le l _ h.2 0 op ho r hr; omega
  | a :: l, i, h, n + 1, op, ho, r, hr => by have := Ssa.le l _ h.2 n op ho r hr; omega

-- The program is in static single assignment: after the fourteen arguments, operation j has buffer 14 + j for its result.
theorem ops_ssa : Ssa 14 (ops (F := F)) := by
  simp only [ops, Ssa, nullary_writes, unary_writes, binary_writes, ternary_writes, reshape_writes, unaryIndexed_writes, Finset.mem_singleton,
    (Proc.devRef_injective _).eq_iff, forall_eq, Nat.reduceAdd, and_true]
  and_intros <;> rfl

variable (W : Valuation τ sig (Elt F))

def pre (n : Nat) : Valuation τ sig (Elt F) := after ((ops (F := F)).take n) W

theorem pre_add (n k : Nat) : pre W (n + k) = after (((ops (F := F)).drop n).take k) (pre W n) := by
  unfold pre; rw [List.take_add, after_append]

-- A buffer numbered below 14 + n is written by no operation from the n-th on.
theorem kept (r : Ref sig .tc) (n N : Nat) (hr : r.idx.val < 14 + n) (h : n ≤ N) :
    pre W N (Proc.devRef .tc r) = pre W n (Proc.devRef .tc r) := by
  obtain ⟨k, rfl⟩ := Nat.exists_eq_add_of_le h
  rw [pre_add]
  exact after_of_forall_not_mem _ _ fun op ho hw => absurd (Ssa.le _ _ ops_ssa n op (List.mem_of_mem_take ho) r hw) (Nat.not_le.mpr hr)

theorem arg (r : Ref sig .tc) (N : Nat) (hr : r.idx.val < 14 := by decide) : pre W N (Proc.devRef .tc r) = W (Proc.devRef .tc r) :=
  kept W r 0 N hr N.zero_le

theorem stage {r : Ref sig .tc} {v} (n k : Nat) (hv : after (((ops (F := F)).drop n).take k) (pre W n) (Proc.devRef .tc r) = v)
    (N : Nat) (h : n + k ≤ N) (hr : r.idx.val < 14 + (n + k)) : pre W N (Proc.devRef .tc r) = v := by
  rw [kept W r (n + k) N hr h, pre_add]; exact hv

abbrev x0 := W (Proc.devRef .tc main_arg0)
abbrev x1 := W (Proc.devRef .tc main_arg1)
abbrev x2 := W (Proc.devRef .tc main_arg2)
abbrev x3 := W (Proc.devRef .tc main_arg3)
abbrev x4 := W (Proc.devRef .tc main_arg4)
abbrev x5 := W (Proc.devRef .tc main_arg5)
abbrev x6 := W (Proc.devRef .tc main_arg6)
abbrev x7 := W (Proc.devRef .tc main_arg7)
abbrev x8 := W (Proc.devRef .tc main_arg8)
abbrev x9 := W (Proc.devRef .tc main_arg9)
abbrev x10 := W (Proc.devRef .tc main_arg10)
abbrev x11 := W (Proc.devRef .tc main_arg11)
abbrev x12 := W (Proc.devRef .tc main_arg12)
abbrev x13 := W (Proc.devRef .tc main_arg13)

theorem s7 (N : Nat) (h : 15 ≤ N := by decide) : pre W N (Proc.devRef .tc main_v7) = val_main_v7 (x0 W) (x3 W) :=
  stage W 0 15 (by
    unfold val_main_v7
    simp only [ops, List.drop, List.take]; after_results
    congr 1
    funext k
    fin_cases k <;> (try simp only [Matrix.cons_val_zero', Matrix.cons_val_succ', Fin.zero_eta, Fin.mk_one, Matrix.cons_val_zero, Matrix.cons_val_one, Matrix.head_cons]) <;> (try after_results) <;> rfl) N h (by decide)
theorem s9 (N : Nat) (h : 18 ≤ N := by decide) : pre W N (Proc.devRef .tc main_v9) = val_main_v9 (x0 W) (x3 W) :=
  stage W 15 3 (by simp only [ops, List.drop, List.take]; after_results_simp; rw [s7 W 15]; rfl) N h (by decide)
theorem s10 (N : Nat) (h : 18 ≤ N := by decide) : pre W N (Proc.devRef .tc main_v10) = val_main_v10 (x1 W) :=
  stage W 15 3 (by simp only [ops, List.drop, List.take]; after_results_simp; rw [arg W main_arg1 15]; rfl) N h (by decide)
theorem s26 (N : Nat) (h : 37 ≤ N := by decide) : pre W N (Proc.devRef .tc main_v26) = val_main_v26 (x0 W) (x1 W) (x3 W) (x4 W) (x5 W) :=
  stage W 18 19 (by simp only [ops, List.drop, List.take]; after_results_simp; rw [s9 W 18, s10 W 18, arg W main_arg4 18, arg W main_arg5 18]; rfl) N h (by decide)
theorem s33 (N : Nat) (h : 46 ≤ N := by decide) : pre W N (Proc.devRef .tc main_v33) = val_main_v33 (x0 W) (x1 W) (x2 W) (x3 W) (x4 W) (x5 W) (x6 W) (x7 W) :=
  stage W 37 9 (by simp only [ops, List.drop, List.take]; after_results; rw [s26 W 37, s9 W 37, arg W main_arg2 37, arg W main_arg6 37, arg W main_arg7 37]; rfl) N h (by decide)
theorem s37 (N : Nat) (h : 54 ≤ N := by decide) : pre W N (Proc.devRef .tc main_v37) = val_main_v37 (x0 W) (x1 W) (x2 W) (x3 W) (x4 W) (x5 W) (x6 W) (x7 W) (x8 W) (x9 W) :=
  stage W 46 8 (by simp only [ops, List.drop, List.take]; after_results_simp; rw [s33 W 46, arg W main_arg8 46, arg W main_arg9 46]; rfl) N h (by decide)
theorem s41 (N : Nat) (h : 54 ≤ N := by decide) : pre W N (Proc.devRef .tc main_v41) = val_main_v41 (x1 W) (x10 W) (x11 W) :=
  stage W 46 8 (by simp only [ops, List.drop, List.take]; after_results_simp; rw [s10 W 46, arg W main_arg10 46, arg W main_arg11 46]; rfl) N h (by decide)
theorem s50 (N : Nat) (h : 65 ≤ N := by decide) : pre W N (Proc.devRef .tc main_v50) = val_main_v50 (x0 W) (x1 W) (x2 W) (x3 W) (x4 W) (x5 W) (x6 W) (x7 W) (x8 W) (x9 W) (x10 W) (x11 W) :=
  stage W 54 11 (by simp only [ops, List.drop, List.take]; after_results_simp; rw [s37 W 54, s41 W 54]; rfl) N h (by decide)
theorem s59 (N : Nat) (h : 76 ≤ N := by decide) : pre W N (Proc.devRef .tc main_v59) = val_main_v59 (x0 W) (x1 W) (x2 W) (x3 W) (x4 W) (x5 W) (x6 W) (x7 W) (x8 W) (x9 W) (x10 W) (x11 W) :=
  stage W 65 11 (by simp only [ops, List.drop, List.take]; after_results_simp; rw [s37 W 65, s41 W 65]; rfl) N h (by decide)
theorem s69 (N : Nat) (h : 87 ≤ N := by decide) : pre W N (Proc.devRef .tc main_v69) = val_main_v69 (x0 W) (x1 W) (x2 W) (x3 W) (x4 W) (x5 W) (x6 W) (x7 W) (x8 W) (x9 W) (x10 W) (x11 W) :=
  stage W 76 11 (by simp only [ops, List.drop, List.take]; after_results_simp; rw [s37 W 76, s41 W 76, s50 W 76, s59 W 76, s10 W 76]; rfl) N h (by decide)
theorem s73 (N : Nat) (h : 91 ≤ N := by decide) : pre W N (Proc.devRef .tc main_v73) = val_main_v73 (x0 W) (x1 W) (x2 W) (x3 W) (x4 W) (x5 W) (x6 W) (x7 W) (x8 W) (x9 W) (x10 W) (x11 W) (x12 W) (x13 W) :=
  stage W 87 4 (by simp only [ops, List.drop, List.take]; after_results_simp; rw [s69 W 87, arg W main_arg12 87, arg W main_arg13 87]; rfl) N h (by decide)
theorem c0 (N : Nat) (h : 93 ≤ N := by decide) : pre W N (Proc.devRef .tc main_call1_v0) = val_main_call1_v0 (x0 W) (x1 W) (x2 W) (x3 W) (x4 W) (x5 W) (x6 W) (x7 W) (x8 W) (x9 W) (x10 W) (x11 W) (x12 W) (x13 W) :=
  stage W 91 2 (by simp only [ops, List.drop, List.take]; after_results; rw [s73 W 91]; unfold val_main_call1_v0 val_main_call1_cst; simp only [TRef.ofBuf, TRef.toBuf, cast_eq]) N h (by decide)
theorem c2 (N : Nat) (h : 96 ≤ N := by decide) : pre W N (Proc.devRef .tc main_call1_v2) = val_main_call1_v2 (x0 W) (x1 W) (x2 W) (x3 W) (x4 W) (x5 W) (x6 W) (x7 W) (x8 W) (x9 W) (x10 W) (x11 W) (x12 W) (x13 W) :=
  stage W 93 3 (by simp only [ops, List.drop, List.take]; after_results; rw [c0 W 93]; unfold val_main_call1_v2 val_main_call1_v1 val_main_call1_cst_0; simp only [TRef.ofBuf, TRef.toBuf, cast_eq]) N h (by decide)
theorem c5 (N : Nat) (h : 99 ≤ N := by decide) : pre W N (Proc.devRef .tc main_call1_v5) = val_main_call1_v5 (x0 W) (x1 W) (x2 W) (x3 W) (x4 W) (x5 W) (x6 W) (x7 W) (x8 W) (x9 W) (x10 W) (x11 W) (x12 W) (x13 W) :=
  stage W 96 3 (by simp only [ops, List.drop, List.take]; after_results; rw [c2 W 96, s73 W 96]; rfl) N h (by decide)
theorem s74 (N : Nat) (h : 106 ≤ N := by decide) : pre W N (Proc.devRef .tc main_v74) = val_main_v74 (x0 W) (x1 W) (x2 W) (x3 W) (x4 W) (x5 W) (x6 W) (x7 W) (x8 W) (x9 W) (x10 W) (x11 W) (x12 W) (x13 W) :=
  stage W 99 7 (by simp only [ops, List.drop, List.take]; after_results; rw [c5 W 99]; rfl) N h (by decide)
theorem s75 (N : Nat) (h : 107 ≤ N := by decide) : pre W N (Proc.devRef .tc main_v75) = val_main_v75 (x0 W) (x1 W) (x2 W) (x3 W) (x4 W) (x5 W) (x6 W) (x7 W) (x8 W) (x9 W) (x10 W) (x11 W) :=
  stage W 106 1 (by simp only [ops, List.drop, List.take]; after_results_simp; rw [s69 W 106]; rfl) N h (by decide)

theorem fin {b : DevRef τ sig} {v} (hv : pre W 107 b = v) : after (ops (F := F)) W b = v := by
  rwa [pre, List.take_of_length_le (Nat.le_of_eq rfl : (ops (F := F)).length ≤ 107)] at hv

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v74) = val_main_v74 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_v75) = val_main_v75 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v26) = val_main_v26 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => by
    refine ⟨(h c _).trans (fin _ (s74 _ 107)), (h c _).trans (fin _ (s75 _ 107)), (h c _).trans (fin _ (s26 _ 107)), ?_⟩
    and_intros <;> exact (h c _).trans (fin _ (arg _ _ 107)))
    (run_seq scopedRefs_eq scopedSems_eq defs main (fun _ => ops) main_eq (fun _ => ops_sub) m ρ)

end Cert.ReferenceIdeal.HandRun

end
-- ==== Proof.lean ====
import proofs.«431030_j74440373174878_3_alg».proof.Defs
import proofs.«431030_j74440373174878_3_alg».proof.Proof.Gen.Kernel
import proofs.«431030_j74440373174878_3_alg».proof.Proof.Gen.KernelIdeal
import proofs.«431030_j74440373174878_3_alg».proof.Proof.Gen.ReferenceIdeal
import proofs.«431030_j74440373174878_3_alg».proof.Proof.Gen.Pre_finite_inputs
import proofs.«431030_j74440373174878_3_alg».proof.Proof.KFrame
import proofs.«431030_j74440373174878_3_alg».proof.Proof.KiFrame
import proofs.«431030_j74440373174878_3_alg».proof.Proof.KiValues
import proofs.«431030_j74440373174878_3_alg».proof.Proof.RefRun
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame_all m ρ
theorem frame_kernelIdeal : Cert.frame_KernelIdeal := fun m ρ _ => Cert.KernelIdeal.Hand.frame_all m ρ
theorem frame_referenceIdeal : Cert.frame_ReferenceIdeal := fun m ρ _ =>
  (θ_run Cert.ReferenceIdeal.defs _ _).mono (fun _ h c => (h c).2.2.2) (Cert.ReferenceIdeal.HandRun.run (F := Ideal) m ρ)

/-- Both programs end at the reference's stages of arguments that agree. -/
theorem algebraic : Cert.algebraic_KernelIdeal_ReferenceIdeal := by
  intro m ρ m' ρ' _ hagree
  refine ⟨_, _, _, Cert.KernelIdeal.Hand.run_values m ρ, ?_⟩
  refine (θ_run Cert.ReferenceIdeal.defs _ _).mono (fun _ h c => ?_) (Cert.ReferenceIdeal.HandRun.run (F := Ideal) m' ρ')
  obtain ⟨h0, h1, h2, hargs⟩ := h c
  obtain ⟨e0, e1, e2, e3, e4, e5, e6, e7, e8, e9, e10, e11, e12, e13⟩ := hagree c
  refine ⟨?_, ?_, ?_, hargs⟩
  · rw [h0, e0, e1, e2, e3, e4, e5, e6, e7, e8, e9, e10, e11, e12, e13]
  · rw [h1, e0, e1, e2, e3, e4, e5, e6, e7, e8, e9, e10, e11]
  · rw [h2, e0, e1, e3, e4, e5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
